-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096x2 : Shape := ⟨3, ![4096, 4096, 2]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096x2 : S_.BroadcastsInDim S4096x4096x2 (![] : Fin 0 → Fin S4096x4096x2.rank)
  reducesTo_S4096x4096x2_S_d0_1_2 : S4096x4096x2.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_arg8 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S4096x256 .f32) (main_arg1 : FVec F S4096x4096x2 .f32) (main_arg2 : FVec F S4096x4096x2 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096x2 .f32 := Host.absf main_arg1
  let main_cst_0 : FVec F S_ .f32 := constant S_ .f32 0x7F800000#32
  let main_v5 : FVec F S4096x4096x2 .f32 := broadcastInDim S4096x4096x2 ![] bcast_S_S4096x4096x2 main_cst_0
  let main_v6 : IVec S4096x4096x2 1 := cmpf .olt main_v4 main_v5
  let main_c_1 : IVec S_ 1 := constantI S_ 1 1#1
  let main_v7 : IVec S_ 1 := (fun x v => Host.reduce IntOp.andi x v reducesTo_S4096x4096x2_S_d0_1_2 h_S_) main_v6 main_c_1
  let main_v8 : IVec S_ 1 := andi main_v3 main_v7
  let main_v9 : FVec F S4096x4096x2 .f32 := Host.absf main_arg2
  let main_cst_2 : FVec F S_ .f32 := constant S_ .f32 0x7F800000#32
  let main_v10 : FVec F S4096x4096x2 .f32 := broadcastInDim S4096x4096x2 ![] bcast_S_S4096x4096x2 main_cst_2
  let main_v11 : IVec S4096x4096x2 1 := cmpf .olt main_v9 main_v10
  let main_c_3 : IVec S_ 1 := constantI S_ 1 1#1
  let main_v12 : IVec S_ 1 := (fun x v => Host.reduce IntOp.andi x v reducesTo_S4096x4096x2_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S4096x256 : Shape := ⟨2, ![4096, 256]⟩
abbrev S4096x4096x2 : Shape := ⟨3, ![4096, 4096, 2]⟩
abbrev S256x256 : Shape := ⟨2, ![256, 256]⟩
abbrev S256 : Shape := ⟨1, ![256]⟩
abbrev S4096x4096x1 : Shape := ⟨3, ![4096, 4096, 1]⟩
abbrev S4096x4096 : Shape := ⟨2, ![4096, 4096]⟩
abbrev S_ : Shape := ⟨0, ![]⟩
abbrev S4096 : Shape := ⟨1, ![4096]⟩
abbrev S1024x512 : Shape := ⟨2, ![1024, 512]⟩
abbrev S512x2048 : Shape := ⟨2, ![512, 2048]⟩
abbrev S1024x2048 : Shape := ⟨2, ![1024, 2048]⟩
abbrev S1x256 : Shape := ⟨2, ![1, 256]⟩
abbrev S2048x2048 : Shape := ⟨2, ![2048, 2048]⟩
abbrev S2048x256 : Shape := ⟨2, ![2048, 256]⟩
abbrev S4096x1 : Shape := ⟨2, ![4096, 1]⟩

abbrev nBuf : Space → Nat
  | .hbm => 36
  | .vmem => 31
  | .smem => 0
  | _ => 0

abbrev bufTy : (tb : Table) → Fin (tcTables nBuf tb) → BufTy
  | .hbm, ⟨0, _⟩ => ⟨S4096x256, .f32⟩
  | .hbm, ⟨1, _⟩ => ⟨S4096x4096x2, .f32⟩
  | .hbm, ⟨2, _⟩ => ⟨S4096x4096x2, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S4096x4096x1, .f32⟩
  | .hbm, ⟨10, _⟩ => ⟨S4096x4096, .f32⟩
  | .hbm, ⟨11, _⟩ => ⟨S4096x4096x1, .f32⟩
  | .hbm, ⟨12, _⟩ => ⟨S4096x4096, .f32⟩
  | .hbm, ⟨13, _⟩ => ⟨S4096x4096x1, .f32⟩
  | .hbm, ⟨14, _⟩ => ⟨S4096x4096, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096x4096, .bf16⟩
  | .hbm, ⟨21, _⟩ => ⟨S4096x256, .f32⟩
  | .hbm, ⟨22, _⟩ => ⟨S4096x256, .bf16⟩
  | .hbm, ⟨23, _⟩ => ⟨S1x256, .f32⟩
  | .hbm, ⟨24, _⟩ => ⟨S4096x256, .f32⟩
  | .hbm, ⟨25, _⟩ => ⟨S4096x256, .f32⟩
  | .hbm, ⟨26, _⟩ => ⟨S4096x256, .bf16⟩
  | .hbm, ⟨27, _⟩ => ⟨S1x256, .f32⟩
  | .hbm, ⟨28, _⟩ => ⟨S4096x256, .f32⟩
  | .hbm, ⟨29, _⟩ => ⟨S4096x256, .f32⟩
  | .hbm, ⟨30, _⟩ => ⟨S4096x256, .bf16⟩
  | .hbm, ⟨31, _⟩ => ⟨S1x256, .f32⟩
  | .hbm, ⟨32, _⟩ => ⟨S4096x256, .f32⟩
  | .hbm, ⟨33, _⟩ => ⟨S4096x1, .f32⟩
  | .hbm, ⟨34, _⟩ => ⟨S4096x256, .f32⟩
  | .hbm, ⟨35, _⟩ => ⟨S4096x256, .f32⟩
  | .local _ .vmem, ⟨0, _⟩ => ⟨S1024x512, .f32⟩
  | .local _ .vmem, ⟨1, _⟩ => ⟨S1024x512, .f32⟩
  | .local _ .vmem, ⟨2, _⟩ => ⟨S512x2048, .f32⟩
  | .local _ .vmem, ⟨3, _⟩ => ⟨S512x2048, .f32⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | .local _ .vmem, ⟨7, _⟩ => ⟨S2048x2048, .bf16⟩
  | .local _ .vmem, ⟨8, _⟩ => ⟨S2048x2048, .bf16⟩
  | .local _ .vmem, ⟨9, _⟩ => ⟨S2048x256, .bf16⟩
  | .local _ .vmem, ⟨10, _⟩ => ⟨S2048x256, .bf16⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x2048, .bf16⟩
  | .local _ .vmem, ⟨16, _⟩ => ⟨S2048x2048, .bf16⟩
  | .local _ .vmem, ⟨17, _⟩ => ⟨S2048x256, .bf16⟩
  | .local _ .vmem, ⟨18, _⟩ => ⟨S2048x256, .bf16⟩
  | .local _ .vmem, ⟨19, _⟩ => ⟨S1x256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .vmem, ⟨23, _⟩ => ⟨S2048x2048, .bf16⟩
  | .local _ .vmem, ⟨24, _⟩ => ⟨S2048x2048, .bf16⟩
  | .local _ .vmem, ⟨25, _⟩ => ⟨S2048x256, .bf16⟩
  | .local _ .vmem, ⟨26, _⟩ => ⟨S2048x256, .bf16⟩
  | .local _ .vmem, ⟨27, _⟩ => ⟨S1x256, .f32⟩
  | .local _ .vmem, ⟨28, _⟩ => ⟨S2048x256, .f32⟩
  | .local _ .vmem, ⟨29, _⟩ => ⟨S2048x256, .f32⟩
  | .local _ .vmem, ⟨30, _⟩ => ⟨S2048x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![2, 2], ![false, false]⟩

def k1_cond2 (i : grid1.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 2], ![false, false]⟩

def k2_cond2 (i : grid2.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![2, 2], ![false, false]⟩

def k3_cond2 (i : grid3.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  slices_S4096x4096x2_S4096x4096x1_0_0_1 : S4096x4096x2.Slices ![0, 0, 1] S4096x4096x1
  shapeCasts_S4096x4096x1_S4096x4096 : S4096x4096x1.ShapeCasts S4096x4096
  slices_S4096x4096x2_S4096x4096x1_0_0_0 : S4096x4096x2.Slices ![0, 0, 0] S4096x4096x1
  reducesTo_S4096x4096_S4096_d0 : S4096x4096.ReducesTo [0] S4096
  h_S_ : 0 < S_.numel
  bcast_S_S4096 : S_.BroadcastsInDim S4096 (![] : Fin 0 → Fin S4096.rank)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  packedbf16_S1024x2048_S1024x2048_0_0 : (Rect.unit (s := S1024x2048) ![0, 0] S1024x2048.size inb_S1024x2048_S1024x2048_0_0).PackedRows (EltTy.packing .bf16)
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  dot_S1024x512_S512x2048_S1024x2048_1_0_0_1_n_n_wf : DotDims.WF S1024x512 S512x2048 S1024x2048 [1] [0] [0] [1] [] []
  dot_S4096x256_S256x256_S4096x256_1_0_0_1_n_n_wf : DotDims.WF S4096x256 S256x256 S4096x256 [1] [0] [0] [1] [] []
  dot_S2048x2048_S2048x256_S2048x256_1_0_0_1_n_n_wf : DotDims.WF S2048x2048 S2048x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x4096.size a
  hwx0_2 : ∀ i : grid0.Coords, EltTy.bits .bf16 = 32 ∨ (Rect.block (s := S4096x4096) S1024x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S4096x4096.size a
  hwx1_0 : ∀ i : grid1.Coords, EltTy.bits .bf16 = 32 ∨ (Rect.block (s := S4096x4096) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x256.size a
  hwx1_1 : ∀ i : grid1.Coords, EltTy.bits .bf16 = 32 ∨ (Rect.block (s := S4096x256) S2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S4096x256.size a
  hwx1_3 : ∀ i : grid1.Coords, EltTy.bits .f32 = 32 ∨ (Rect.block (s := S4096x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S4096x4096.size a
  hwx2_0 : ∀ i : grid2.Coords, EltTy.bits .bf16 = 32 ∨ (Rect.block (s := S4096x4096) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S4096x256.size a
  hwx2_1 : ∀ i : grid2.Coords, EltTy.bits .bf16 = 32 ∨ (Rect.block (s := S4096x256) S2048x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S4096x256.size a
  hwx2_3 : ∀ i : grid2.Coords, EltTy.bits .f32 = 32 ∨ (Rect.block (s := S4096x256) S2048x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S4096x4096.size a
  hwx3_0 : ∀ i : grid3.Coords, EltTy.bits .bf16 = 32 ∨ (Rect.block (s := S4096x4096) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S4096x256.size a
  hwx3_1 : ∀ i : grid3.Coords, EltTy.bits .bf16 = 32 ∨ (Rect.block (s := S4096x256) S2048x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x256.size a ≤ S4096x256.size a
  hwx3_3 : ∀ i : grid3.Coords, EltTy.bits .f32 = 32 ∨ (Rect.block (s := S4096x256) S2048x256.size (cc3_transform_3 i) (hinb3_3 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf

abbrev win0_0 : Pipeline.Window sig grid0 :=
  Pipeline.Window.ofSpec (Memref.whole main_v3) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v9) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v9) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S2048x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S4096x256 : Shape := ⟨2, ![4096, 256]⟩
abbrev S4096x4096x2 : Shape := ⟨3, ![4096, 4096, 2]⟩
abbrev S256x256 : Shape := ⟨2, ![256, 256]⟩
abbrev S256 : Shape := ⟨1, ![256]⟩
abbrev S4096x4096x1 : Shape := ⟨3, ![4096, 4096, 1]⟩
abbrev S4096x4096 : Shape := ⟨2, ![4096, 4096]⟩
abbrev S1x256 : Shape := ⟨2, ![1, 256]⟩
abbrev S_ : Shape := ⟨0, ![]⟩
abbrev S4096 : Shape := ⟨1, ![4096]⟩
abbrev S4096x1 : Shape := ⟨2, ![4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096x2, .f32⟩
  | .hbm, ⟨2, _⟩ => ⟨S4096x4096x2, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S4096x4096x1, .f32⟩
  | .hbm, ⟨10, _⟩ => ⟨S4096x4096, .f32⟩
  | .hbm, ⟨11, _⟩ => ⟨S4096x4096x1, .f32⟩
  | .hbm, ⟨12, _⟩ => ⟨S4096x4096, .f32⟩
  | .hbm, ⟨13, _⟩ => ⟨S4096x4096, .f32⟩
  | .hbm, ⟨14, _⟩ => ⟨S4096x256, .f32⟩
  | .hbm, ⟨15, _⟩ => ⟨S4096x256, .f32⟩
  | .hbm, ⟨16, _⟩ => ⟨S1x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S1x256, .f32⟩
  | .hbm, ⟨25, _⟩ => ⟨S4096x256, .f32⟩
  | .hbm, ⟨26, _⟩ => ⟨S4096x256, .f32⟩
  | .hbm, ⟨27, _⟩ => ⟨S_, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S1x256, .f32⟩
  | .hbm, ⟨33, _⟩ => ⟨S4096x256, .f32⟩
  | .hbm, ⟨34, _⟩ => ⟨S4096x256, .f32⟩
  | .hbm, ⟨35, _⟩ => ⟨S4096x4096x1, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096x1, .f32⟩
  | .hbm, ⟨43, _⟩ => ⟨S4096x256, .f32⟩
  | .hbm, ⟨44, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_cst : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_cst : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  slices_S4096x4096x2_S4096x4096x1_0_0_1 : S4096x4096x2.Slices ![0, 0, 1] S4096x4096x1
  shapeCasts_S4096x4096x1_S4096x4096 : S4096x4096x1.ShapeCasts S4096x4096
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  slices_S4096x4096x2_S4096x4096x1_0_0_0 : S4096x4096x2.Slices ![0, 0, 0] S4096x4096x1
  reducesTo_S4096x4096_S4096_d0 : S4096x4096.ReducesTo [0] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  dot_S4096x4096_S4096x4096_S4096x4096_1_0_0_1_n_n_wf : DotDims.WF S4096x4096 S4096x4096 S4096x4096 [1] [0] [0] [1] [] []
  dot_S4096x4096_S4096x256_S4096x256_1_0_0_1_n_n_wf : DotDims.WF S4096x4096 S4096x256 S4096x256 [1] [0] [0] [1] [] []
  dot_S4096x256_S256x256_S4096x256_1_0_0_1_n_n_wf : DotDims.WF S4096x256 S256x256 S4096x256 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.HandBits.R0Shared.lean ====
import proofs.«123138_j12206297055730_1_alg».proof.Proof.Gen.Kernel.Launch
import proofs.«123138_j12206297055730_1_alg».proof.Proof.Gen.Kernel.Skeleton
import proofs.«123138_j12206297055730_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the call is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The accumulator is reset exactly where the last grid coordinate is 0 and the output block stored exactly where it is 7. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel

theorem liveAt0_2_C : ∀ t : Fin cfg0.N, cond0_1 (grid0.coords t) → cfg0.idle 2 (grid0.coords t) = false := by decide +kernel

abbrev VO0_2 : View sig .tc .vmem S1024x2048 .bf16 := (Memref.whole cc0_stg2_0 : Memref sig .tc .vmem S1024x2048 .bf16).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)

abbrev scM0_0 : Memref sig .tc .vmem S1024x2048 .f32 := Memref.whole cc0_scratch0
abbrev VS0_0 : View sig .tc .vmem S1024x2048 .f32 := scM0_0.view

/-- What a buffer of the accumulator's shape, and one of the output block's, reads once the pieces `L` are written over it. -/
abbrev rd0 (L : List (View.Piece (Elt F) S1024x2048 .f32)) : Vec F S1024x2048 .f32 :=
  VS0_0.read (Elt F) (VS0_0.writes (Elt F) VS0_0.junk L)
abbrev ro0 (L : List (View.Piece (Elt F) S1024x2048 .bf16)) : Vec F S1024x2048 .bf16 :=
  VO0_2.read (Elt F) (VO0_2.writes (Elt F) VO0_2.junk L)

abbrev others0 (c : Dev nD) : sProp 𝕄 :=
  Pipeline.scopedRestBut (Ix := Unit) (Name := ℕ) (U := UR sig nD τ) (Lvl := ℕ) (Val := Elt F) spec0 c [cc0_scratch0]

/-- The call's own state at entry holds the accumulator at some contents, beside what the call never touches. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [show (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f)) ∗ others0 c)
      from Pipeline.scopedRest_split_of_list spec0 c [cc0_scratch0] (by decide) (by decide)]
  simp only [scM0_0, owns_whole]
  try rfl

end Cert.Kernel.Hand

end
-- ==== Proof.HandBits.R0RunA.lean ====
import proofs.«123138_j12206297055730_1_alg».proof.Proof.HandBits.R0Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole)

set_option maxHeartbeats 1000000 in
/-- The body where the accumulator is reset: the inputs and the output's buffer come back as they were, the accumulator
    written with the pieces the run finds. -/
noncomputable def kernelRun0_A (hc0 : cond0_0 i) (hc1 : ¬cond0_1 i)
    (x0 : Vec F S1024x512 .f32) (x1 : Vec F S512x2048 .f32) :
    Σ' (L2 : List (View.Piece (Elt F) S1024x2048 .bf16)), { LS0 : List (View.Piece (Elt F) S1024x2048 .f32) //
      ∀ (xi2 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg3 harg3 arg4 harg4 arg5 harg5 arg6 harg6) K } := by
  refine ⟨[], ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.HandBits.R0RunB.lean ====
import proofs.«123138_j12206297055730_1_alg».proof.Proof.HandBits.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole)

set_option maxHeartbeats 1000000 in
/-- The body between the reset and the store: the accumulator is entered at `xs0` and written with the pieces the run finds. -/
noncomputable def kernelRun0_B (hc0 : ¬cond0_0 i) (hc1 : ¬cond0_1 i)
    (x0 : Vec F S1024x512 .f32) (x1 : Vec F S512x2048 .f32) (xs0 : Vec F S1024x2048 .f32) :
    Σ' (L2 : List (View.Piece (Elt F) S1024x2048 .bf16)), { LS0 : List (View.Piece (Elt F) S1024x2048 .f32) //
      ∀ (xi2 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg3 harg3 arg4 harg4 arg5 harg5 arg6 harg6) K } := by
  refine ⟨[], ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.HandBits.R0RunC.lean ====
import proofs.«123138_j12206297055730_1_alg».proof.Proof.HandBits.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole)

set_option maxHeartbeats 1000000 in
/-- The body where the output block is stored: the accumulator is entered at `xs0`; the output's buffer and the accumulator
    are written with the pieces the run finds. -/
noncomputable def kernelRun0_C (hc0 : ¬cond0_0 i) (hc1 : cond0_1 i)
    (x0 : Vec F S1024x512 .f32) (x1 : Vec F S512x2048 .f32) (xs0 : Vec F S1024x2048 .f32) :
    Σ' (L2 : List (View.Piece (Elt F) S1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.HandBits.R0Frame.lean ====
import proofs.«123138_j12206297055730_1_alg».proof.Proof.HandBits.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole)
  (x0 : Vec F S1024x512 .f32) (x1 : Vec F S512x2048 .f32) (xs0 : Vec F S1024x2048 .f32)

/-- Each run's stores tile the buffer they go to, so they cover it. -/
theorem scover0_A (hc0 : cond0_0 i) (hc1 : ¬cond0_1 i) :
    ∀ y : S1024x2048.Idx, ∃ pc ∈ (kernelRun0_A c i arg3 harg3 arg4 harg4 arg5 harg5 arg6 harg6 hc0 hc1 x0 x1).2.1, y ∈ pc.1.set :=
  View.cover_of_tiledL _ S1024x2048.size (by sl_kernel_rfl)
theorem scover0_B (hc0 : ¬cond0_0 i) (hc1 : ¬cond0_1 i) :
    ∀ y : S1024x2048.Idx, ∃ pc ∈ (kernelRun0_B c i arg3 harg3 arg4 harg4 arg5 harg5 arg6 harg6 hc0 hc1 x0 x1 xs0).2.1, y ∈ pc.1.set :=
  View.cover_of_tiledL _ S1024x2048.size (by sl_kernel_rfl)
theorem cover0_C (hc0 : ¬cond0_0 i) (hc1 : cond0_1 i) :
    ∀ y : S1024x2048.Idx, ∃ pc ∈ (kernelRun0_C c i arg3 harg3 arg4 harg4 arg5 harg5 arg6 harg6 hc0 hc1 x0 x1 xs0).1, y ∈ pc.1.set :=
  View.cover_of_tiledL _ S1024x2048.size (by sl_kernel_rfl)
theorem scover0_C (hc0 : ¬cond0_0 i) (hc1 : cond0_1 i) :
    ∀ y : S1024x2048.Idx, ∃ pc ∈ (kernelRun0_C c i arg3 harg3 arg4 harg4 arg5 harg5 arg6 harg6 hc0 hc1 x0 x1 xs0).2.1, y ∈ pc.1.set :=
  View.cover_of_tiledL _ S1024x2048.size (by sl_kernel_rfl)

end Pieces

/-- The body's run at a point, by the point's position in its run of eight, on that point's staging buffers and blocks; after
    the first of the eight the accumulator is entered at `acc`. -/
abbrev runA0 (c : Dev nD) (t : Fin cfg0.N) (h0 : t.val % 8 = 0) :=
  kernelRun0_A (F := F) c (grid0.coords t) (ms0_0 t) (hs0_0 t) (ms0_1 t) (hs0_1 t) (ms0_2 t) (hs0_2 t) scM0_0 (Memref.isWhole_whole _)
    ((hcond0_0 t).mpr h0) (fun h => by have := (hcond0_1 t).mp h; omega) (iblk0 V c 0 t) (iblk0 V c 1 t)
abbrev runB0 (c : Dev nD) (t : Fin cfg0.N) (h0 : ¬t.val % 8 = 0) (h1 : ¬t.val % 8 = 7) (acc : Vec F S1024x2048 .f32) :=
  kernelRun0_B (F := F) c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (iblk0 V c 0 t) (iblk0 V c 1 t) acc
abbrev runC0 (c : Dev nD) (t : Fin cfg0.N) (h0 : ¬t.val % 8 = 0) (h1 : t.val % 8 = 7) (acc : Vec F S1024x2048 .f32) :=
  kernelRun0_C (F := F) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk0 V c 0 t) (iblk0 V c 1 t) acc

/-- What the output's staging buffer (first) and the accumulator (second) hold after the body at position `n`. -/
def outsAt0 (c : Dev nD) : (n : ℕ) → n < cfg0.N → Vec F S1024x2048 .bf16 × Vec F S1024x2048 .f32
  | 0, hn => (ro0 (runA0 V c ⟨0, hn⟩ rfl).1, rd0 (runA0 V c ⟨0, hn⟩ rfl).2.1)
  | n + 1, hn =>
    if h0 : (n + 1) % 8 = 0 then (ro0 (runA0 V c ⟨n + 1, hn⟩ h0).1, rd0 (runA0 V c ⟨n + 1, hn⟩ h0).2.1)
    else if h1 : (n + 1) % 8 = 7 then
      (ro0 (runC0 V c ⟨n + 1, hn⟩ h0 h1 (outsAt0 c n (Nat.lt_of_succ_lt hn)).2).1,
        rd0 (runC0 V c ⟨n + 1, hn⟩ h0 h1 (outsAt0 c n (Nat.lt_of_succ_lt hn)).2).2.1)
    else
      (ro0 (runB0 V c ⟨n + 1, hn⟩ h0 h1 (outsAt0 c n (Nat.lt_of_succ_lt hn)).2).1,
        rd0 (runB0 V c ⟨n + 1, hn⟩ h0 h1 (outsAt0 c n (Nat.lt_of_succ_lt hn)).2).2.1)

/-- The accumulator as the position before `t` left it. -/
abbrev accBefore0 (c : Dev nD) (t : Fin cfg0.N) : Vec F S1024x2048 .f32 :=
  (outsAt0 V c (t.val - 1) (Nat.lt_of_le_of_lt (Nat.sub_le _ _) t.isLt)).2

theorem outsAt0_A (c : Dev nD) (t : Fin cfg0.N) (h0 : t.val % 8 = 0) :
    outsAt0 V c t.val t.isLt = (ro0 (runA0 V c t h0).1, rd0 (runA0 V c t h0).2.1) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt
      = (ro0 (runB0 V c t h0 h1 (accBefore0 V c t)).1, rd0 (runB0 V c t h0 h1 (accBefore0 V c t)).2.1) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt
      = (ro0 (runC0 V c t h0 h1 (accBefore0 V c t)).1, rd0 (runC0 V c t h0 h1 (accBefore0 V c t)).2.1) := by
  obtain ⟨n, hn⟩ := t
  cases n with
  | zero => exact absurd (Nat.zero_mod _) h0
  | succ n => exact (dif_neg h0).trans ((dif_pos h1).trans rfl)

/-- The call's own state before position `n`: the accumulator at what the position before left, beside the rest. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

/-- Before any position the call's own state holds the accumulator at some contents. -/
theorem PhiS0_some (c : Dev nD) (n : ℕ) (h : n ≤ cfg0.N) :
    PhiS0 V c n h ⊢ iprop(iprop((∃ d, owns (c : Thread nD τ) scM0_0 fullShare d) ∗ others0 c) ∗ (∃ r, prngReg c r)) := by
  cases n with
  | zero => rw [show PhiS0 V c 0 h = Pipeline.ΦA spec0 c from rfl, PhiA0_eq]
  | succ n =>
    show iprop(iprop(owns (c : Thread nD τ) scM0_0 fullShare ((outsAt0 V c n h).2) ∗ others0 c) ∗ (∃ r, prngReg c r)) ⊢ _
    iintro ⟨⟨HS0, Hoth⟩, Hg⟩
    isplitr [Hg]; swap; · iexact Hg
    isplitr [Hoth]; swap; · iexact Hoth
    iexists _; iexact HS0

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-- The call's proof data on core `c`: after the body each input's buffer holds its block and the output's `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem after0_2 (c : Dev nD) (t : Fin cfg0.N) : (dat0 V c).after 2 t = (outsAt0 V c t.val t.isLt).1 := rfl

theorem before0_0 (c : Dev nD) (t : Fin cfg0.N) (d) : (dat0 V c).before 0 t d = iblk0 V c 0 t :=
  before0_0_of V (dat0 V c) rfl (fun _ => rfl) t d
theorem before0_1 (c : Dev nD) (t : Fin cfg0.N) (d) : (dat0 V c).before 1 t d = iblk0 V c 1 t :=
  before0_1_of V (dat0 V c) rfl (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the point's position in its run of eight says which case runs; the call's own state hands it the
    accumulator and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = iprop(iprop(owns (c : Thread nD τ) scM0_0 fullShare ((outsAt0 V c t.val t.isLt).2) ∗ others0 c) ∗ (∃ r, prngReg c r)) from rfl]
  rw [show (dat0 V c).leavesExact 0 t = owns (c : Thread nD τ) (ms0_0 t) fullShare (iblk0 V c 0 t) from by
    unfold Dat.leavesExact; rw [liveAt0_0 t]; rfl]
  rw [show (dat0 V c).leavesExact 1 t = owns (c : Thread nD τ) (ms0_1 t) fullShare (iblk0 V c 1 t) from by
    unfold Dat.leavesExact; rw [liveAt0_1 t]; rfl]
  rw [show (dat0 V c).Φ t.castSucc = PhiS0 V c t.val (Nat.le_of_lt t.isLt) from rfl]
  by_cases h0 : t.val % 8 = 0
  · have hc1 : ¬cond0_1 (grid0.coords t) := fun h => by have := (hcond0_1 t).mp h; omega
    rw [Dat.leavesExact_idle (dat0 V c) 2 t (idleAt0_2 t hc1) (noFlush0_2 t hc1), outsAt0_A V c t h0]
    dsimp only
    iintro ⟨HP, Ho, ⟨%d0, H0⟩, ⟨%d1, H1⟩, ⟨%d2, H2⟩⟩
    ihave HP' := (PhiS0_some V c _ _) $$ HP
    icases HP' with ⟨⟨HS0, Hoth⟩, Hg⟩
    iapply ((runA0 V c t h0).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_A _ _ _ _ _ _ _ _ _ _ _ _ _ _)
        iexact Hoth
      iexact Hg
    isplitl [Ho]; · iexact Ho
    isplitl [H0]; · iexact H0
    isplitl [H1]; · iexact H1
    iexists _; iexact H2
  · have hz : t.val ≠ 0 := fun hz => h0 (by rw [hz])
    rw [PhiS0_pos V c _ _ hz]
    by_cases h1 : t.val % 8 = 7
    · have hc1 : cond0_1 (grid0.coords t) := (hcond0_1 t).mpr h1
      rw [show (dat0 V c).leavesExact 2 t = owns (c : Thread nD τ) (ms0_2 t) fullShare ((outsAt0 V c t.val t.isLt).1) from by
        unfold Dat.leavesExact; rw [liveAt0_2_C t hc1]; rfl]
      rw [outsAt0_C V c t h0 h1]
      dsimp only
      iintro ⟨⟨⟨HS0, Hoth⟩, Hg⟩, Ho, ⟨%d0, H0⟩, ⟨%d1, H1⟩, ⟨%d2, H2⟩⟩
      iapply ((runC0 V c t h0 h1 _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C _ _ _ _ _ _ _ _ _ _ _ _ _ _ _)
    · have hc1 : ¬cond0_1 (grid0.coords t) := fun h => h1 ((hcond0_1 t).mp h)
      rw [Dat.leavesExact_idle (dat0 V c) 2 t (idleAt0_2 t hc1) (noFlush0_2 t hc1), outsAt0_B V c t h0 h1]
      dsimp only
      iintro ⟨⟨⟨HS0, Hoth⟩, Hg⟩, Ho, ⟨%d0, H0⟩, ⟨%d1, H1⟩, ⟨%d2, H2⟩⟩
      iapply ((runB0 V c t h0 h1 _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B _ _ _ _ _ _ _ _ _ _ _ _ _ _ _)
          iexact Hoth
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c := by
  rw [PhiA0_eq]; exact PhiS0_some V c (Fin.last cfg0.N).val _

end Cert.Kernel.Hand

end
-- ==== Proof.HandBits.R1Shared.lean ====
import proofs.«123138_j12206297055730_1_alg».proof.Proof.Gen.Kernel.Launch
import proofs.«123138_j12206297055730_1_alg».proof.Proof.Gen.Kernel.Skeleton
import proofs.«123138_j12206297055730_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the call is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The accumulator is reset exactly at the even points and the output block stored exactly at the odd ones. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem liveAt1_3_B : ∀ t : Fin cfg1.N, ¬cond1_0 (grid1.coords t) → cond1_1 (grid1.coords t) → cfg1.idle 3 (grid1.coords t) = false := by decide +kernel

abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
abbrev scM1_0 : Memref sig .tc .vmem S2048x256 .f32 := Memref.whole cc1_scratch0
abbrev VS1_0 : View sig .tc .vmem S2048x256 .f32 := scM1_0.view

/-- What a buffer of the accumulator's shape reads once the pieces `L` are written over it, wherever they cover it. -/
abbrev rd1 (L : List (View.Piece (Elt F) S2048x256 .f32)) : Vec F S2048x256 .f32 :=
  VS1_0.read (Elt F) (VS1_0.writes (Elt F) VS1_0.junk L)

abbrev others1 (c : Dev nD) : sProp 𝕄 :=
  Pipeline.scopedRestBut (Ix := Unit) (Name := ℕ) (U := UR sig nD τ) (Lvl := ℕ) (Val := Elt F) spec1 c [cc1_scratch0]

/-- The call's own state at entry holds the accumulator at some contents, beside what the call never touches. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [show (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)) ∗ others1 c)
      from Pipeline.scopedRest_split_of_list spec1 c [cc1_scratch0] (by decide) (by decide)]
  simp only [scM1_0, owns_whole]
  try rfl

end Cert.Kernel.Hand

end
-- ==== Proof.HandBits.R1RunA.lean ====
import proofs.«123138_j12206297055730_1_alg».proof.Proof.HandBits.R1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

set_option maxHeartbeats 1000000 in
/-- The body where the accumulator is reset: the inputs and the output's buffer come back as they were, the accumulator
    written with the pieces the run finds. -/
noncomputable def kernelRun1_A (hc0 : cond1_0 i) (hc1 : ¬cond1_1 i)
    (x0 : Vec F S2048x2048 .bf16) (x1 : Vec F S2048x256 .bf16) (x2 : Vec F S1x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.HandBits.R1RunB.lean ====
import proofs.«123138_j12206297055730_1_alg».proof.Proof.HandBits.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

set_option maxHeartbeats 1000000 in
/-- The body where the output block is stored: the accumulator is entered at `xs0`; the inputs come back as they were, the
    output's buffer and the accumulator written with the pieces the run finds. -/
noncomputable def kernelRun1_B (hc0 : ¬cond1_0 i) (hc1 : cond1_1 i)
    (x0 : Vec F S2048x2048 .bf16) (x1 : Vec F S2048x256 .bf16) (x2 : Vec F S1x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.HandBits.R1Frame.lean ====
import proofs.«123138_j12206297055730_1_alg».proof.Proof.HandBits.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)
  (x0 : Vec F S2048x2048 .bf16) (x1 : Vec F S2048x256 .bf16) (x2 : Vec F S1x256 .f32) (xs0 : Vec F S2048x256 .f32)

/-- Each run's stores tile the buffer they go to, so they cover it. -/
theorem scover1_A (hc0 : cond1_0 i) (hc1 : ¬cond1_1 i) :
    ∀ y : S2048x256.Idx, ∃ pc ∈ (kernelRun1_A c i arg2 harg2 arg3 harg3 arg4 harg4 arg5 harg5 arg6 harg6 hc0 hc1 x0 x1 x2).2.1, y ∈ pc.1.set :=
  View.cover_of_tiledL _ S2048x256.size (by sl_kernel_rfl)
theorem cover1_B (hc0 : ¬cond1_0 i) (hc1 : cond1_1 i) :
    ∀ y : S2048x256.Idx, ∃ pc ∈ (kernelRun1_B c i arg2 harg2 arg3 harg3 arg4 harg4 arg5 harg5 arg6 harg6 hc0 hc1 x0 x1 x2 xs0).1, y ∈ pc.1.set :=
  View.cover_of_tiledL _ S2048x256.size (by sl_kernel_rfl)
theorem scover1_B (hc0 : ¬cond1_0 i) (hc1 : cond1_1 i) :
    ∀ y : S2048x256.Idx, ∃ pc ∈ (kernelRun1_B c i arg2 harg2 arg3 harg3 arg4 harg4 arg5 harg5 arg6 harg6 hc0 hc1 x0 x1 x2 xs0).2.1, y ∈ pc.1.set :=
  View.cover_of_tiledL _ S2048x256.size (by sl_kernel_rfl)

end Pieces

/-- The body's run at an even point, on that point's staging buffers and blocks. -/
abbrev runA1 (c : Dev nD) (t : Fin cfg1.N) (h0 : t.val % 2 = 0) :=
  kernelRun1_A (F := F) c (grid1.coords t) (ms1_0 t) (hs1_0 t) (ms1_1 t) (hs1_1 t) (ms1_2 t) (hs1_2 t) (ms1_3 t) (hs1_3 t) scM1_0 (Memref.isWhole_whole _)
    ((hcond1_0 t).mpr h0) (fun h => by have := (hcond1_1 t).mp h; omega) (iblk1 V c 0 t) (iblk1 V c 1 t) (iblk1 V c 2 t)
/-- The body's run at an odd point, the accumulator entered at `acc`. -/
abbrev runB1 (c : Dev nD) (t : Fin cfg1.N) (h0 : ¬t.val % 2 = 0) (acc : Vec F S2048x256 .f32) :=
  kernelRun1_B (F := F) c (grid1.coords t) (ms1_0 t) (hs1_0 t) (ms1_1 t) (hs1_1 t) (ms1_2 t) (hs1_2 t) (ms1_3 t) (hs1_3 t) scM1_0 (Memref.isWhole_whole _)
    (fun h => h0 ((hcond1_0 t).mp h)) ((hcond1_1 t).mpr (Nat.mod_two_ne_zero.mp h0)) (iblk1 V c 0 t) (iblk1 V c 1 t) (iblk1 V c 2 t) acc

/-- What the output's staging buffer (first) and the accumulator (second) hold after the body at position `n`: an odd
    position's run enters the accumulator at what the position before left. -/
def outsAt1 (c : Dev nD) : (n : ℕ) → n < cfg1.N → Vec F S2048x256 .f32 × Vec F S2048x256 .f32
  | 0, hn => (rd1 (runA1 V c ⟨0, hn⟩ rfl).1, rd1 (runA1 V c ⟨0, hn⟩ rfl).2.1)
  | n + 1, hn =>
    if h0 : (n + 1) % 2 = 0 then (rd1 (runA1 V c ⟨n + 1, hn⟩ h0).1, rd1 (runA1 V c ⟨n + 1, hn⟩ h0).2.1)
    else (rd1 (runB1 V c ⟨n + 1, hn⟩ h0 (outsAt1 c n (Nat.lt_of_succ_lt hn)).2).1,
      rd1 (runB1 V c ⟨n + 1, hn⟩ h0 (outsAt1 c n (Nat.lt_of_succ_lt hn)).2).2.1)

theorem outsAt1_A (c : Dev nD) (t : Fin cfg1.N) (h0 : t.val % 2 = 0) :
    outsAt1 V c t.val t.isLt = (rd1 (runA1 V c t h0).1, rd1 (runA1 V c t h0).2.1) := by
  obtain ⟨n, hn⟩ := t
  cases n with
  | zero => exact rfl
  | succ n => exact (dif_pos h0).trans rfl

/-- The accumulator as the position before `t` left it. -/
abbrev accBefore1 (c : Dev nD) (t : Fin cfg1.N) : Vec F S2048x256 .f32 :=
  (outsAt1 V c (t.val - 1) (Nat.lt_of_le_of_lt (Nat.sub_le _ _) t.isLt)).2

theorem outsAt1_B (c : Dev nD) (t : Fin cfg1.N) (h0 : ¬t.val % 2 = 0) :
    outsAt1 V c t.val t.isLt = (rd1 (runB1 V c t h0 (accBefore1 V c t)).1, rd1 (runB1 V c t h0 (accBefore1 V c t)).2.1) := by
  obtain ⟨n, hn⟩ := t
  cases n with
  | zero => exact absurd (Nat.zero_mod _) h0
  | succ n => exact (dif_neg h0).trans rfl

/-- The call's own state before position `n`: the accumulator at what the position before left, beside the rest. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

/-- Before any position the call's own state holds the accumulator at some contents. -/
theorem PhiS1_some (c : Dev nD) (n : ℕ) (h : n ≤ cfg1.N) :
    PhiS1 V c n h ⊢ iprop(iprop((∃ d, owns (c : Thread nD τ) scM1_0 fullShare d) ∗ others1 c) ∗ (∃ r, prngReg c r)) := by
  cases n with
  | zero => rw [show PhiS1 V c 0 h = Pipeline.ΦA spec1 c from rfl, PhiA1_eq]
  | succ n =>
    show iprop(iprop(owns (c : Thread nD τ) scM1_0 fullShare ((outsAt1 V c n h).2) ∗ others1 c) ∗ (∃ r, prngReg c r)) ⊢ _
    iintro ⟨⟨HS0, Hoth⟩, Hg⟩
    isplitr [Hg]; swap; · iexact Hg
    isplitr [Hoth]; swap; · iexact Hoth
    iexists _; iexact HS0

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-- The call's proof data on core `c`: after the body each input's buffer holds its block and the output's `outsAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  before1_0_of V (dat1 V c) rfl (fun _ => rfl) t d
theorem before1_1 (c : Dev nD) (t : Fin cfg1.N) (d) : (dat1 V c).before 1 t d = iblk1 V c 1 t :=
  before1_1_of V (dat1 V c) rfl (fun _ => rfl) t d
theorem before1_2 (c : Dev nD) (t : Fin cfg1.N) (d) : (dat1 V c).before 2 t d = iblk1 V c 2 t :=
  before1_2_of V (dat1 V c) rfl (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the point's parity says which case runs; the call's own state hands it the accumulator and takes
    it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = iprop(iprop(owns (c : Thread nD τ) scM1_0 fullShare ((outsAt1 V c t.val t.isLt).2) ∗ others1 c) ∗ (∃ r, prngReg c r)) from rfl]
  rw [show (dat1 V c).leavesExact 0 t = owns (c : Thread nD τ) (ms1_0 t) fullShare (iblk1 V c 0 t) from by
    unfold Dat.leavesExact; rw [liveAt1_0 t]; rfl]
  rw [show (dat1 V c).leavesExact 1 t = owns (c : Thread nD τ) (ms1_1 t) fullShare (iblk1 V c 1 t) from by
    unfold Dat.leavesExact; rw [liveAt1_1 t]; rfl]
  rw [show (dat1 V c).leavesExact 2 t = owns (c : Thread nD τ) (ms1_2 t) fullShare (iblk1 V c 2 t) from by
    unfold Dat.leavesExact; rw [liveAt1_2 t]; rfl]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3_A t hc0 hc1) (noFlush1_3_A t hc0 hc1)]
    rw [outsAt1_A V c t h0, show (dat1 V c).Φ t.castSucc = PhiS1 V c t.val (Nat.le_of_lt t.isLt) from rfl]
    dsimp only
    iintro ⟨HP, Ho, ⟨%d0, H0⟩, ⟨%d1, H1⟩, ⟨%d2, H2⟩, ⟨%d3, H3⟩⟩
    ihave HP' := (PhiS1_some V c _ _) $$ HP
    icases HP' with ⟨⟨HS0, Hoth⟩, Hg⟩
    iapply ((runA1 V c t h0).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover1_A _ _ _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · have hc0 : ¬cond1_0 (grid1.coords t) := fun h => h0 ((hcond1_0 t).mp h)
    have hc1 : cond1_1 (grid1.coords t) := (hcond1_1 t).mpr (by omega)
    have hz : t.val ≠ 0 := fun hz => h0 (by rw [hz])
    rw [show (dat1 V c).leavesExact 3 t = owns (c : Thread nD τ) (ms1_3 t) fullShare ((outsAt1 V c t.val t.isLt).1) from by
      unfold Dat.leavesExact; rw [liveAt1_3_B t hc0 hc1]; rfl]
    rw [outsAt1_B V c t h0]
    rw [show (dat1 V c).Φ t.castSucc = PhiS1 V c t.val (Nat.le_of_lt t.isLt) from rfl, PhiS1_pos V c _ _ hz]
    dsimp only
    iintro ⟨⟨⟨HS0, Hoth⟩, Hg⟩, Ho, ⟨%d0, H0⟩, ⟨%d1, H1⟩, ⟨%d2, H2⟩, ⟨%d3, H3⟩⟩
    iapply ((runB1 V c t h0 _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover1_B _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := by
  rw [PhiA1_eq]; exact PhiS1_some V c (Fin.last cfg1.N).val _

end Cert.Kernel.Hand

end
-- ==== Proof.HandBits.R2Shared.lean ====
import proofs.«123138_j12206297055730_1_alg».proof.Proof.Gen.Kernel.Launch
import proofs.«123138_j12206297055730_1_alg».proof.Proof.Gen.Kernel.Skeleton
import proofs.«123138_j12206297055730_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the call is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The accumulator is reset exactly at the even points and the output block stored exactly at the odd ones. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem liveAt2_3_B : ∀ t : Fin cfg2.N, ¬cond2_0 (grid2.coords t) → cond2_1 (grid2.coords t) → cfg2.idle 3 (grid2.coords t) = false := by decide +kernel

abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)
abbrev scM2_0 : Memref sig .tc .vmem S2048x256 .f32 := Memref.whole cc2_scratch0
abbrev VS2_0 : View sig .tc .vmem S2048x256 .f32 := scM2_0.view

/-- What a buffer of the accumulator's shape reads once the pieces `L` are written over it, wherever they cover it. -/
abbrev rd2 (L : List (View.Piece (Elt F) S2048x256 .f32)) : Vec F S2048x256 .f32 :=
  VS2_0.read (Elt F) (VS2_0.writes (Elt F) VS2_0.junk L)

abbrev others2 (c : Dev nD) : sProp 𝕄 :=
  Pipeline.scopedRestBut (Ix := Unit) (Name := ℕ) (U := UR sig nD τ) (Lvl := ℕ) (Val := Elt F) spec2 c [cc2_scratch0]

/-- The call's own state at entry holds the accumulator at some contents, beside what the call never touches. -/
theorem PhiA2_eq (c : Dev nD) :
    (Pipeline.ΦA spec2 c : sProp 𝕄)
      = iprop(iprop((∃ d, owns (c : Thread nD τ) scM2_0 fullShare d) ∗ others2 c) ∗ (∃ r, prngReg c r)) := by
  unfold Pipeline.ΦA
  rw [show (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f)) ∗ others2 c)
      from Pipeline.scopedRest_split_of_list spec2 c [cc2_scratch0] (by decide) (by decide)]
  simp only [scM2_0, owns_whole]
  try rfl

end Cert.Kernel.Hand

end
-- ==== Proof.HandBits.R2RunA.lean ====
import proofs.«123138_j12206297055730_1_alg».proof.Proof.HandBits.R2Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

set_option maxHeartbeats 1000000 in
/-- The body where the accumulator is reset: the inputs and the output's buffer come back as they were, the accumulator
    written with the pieces the run finds. -/
noncomputable def kernelRun2_A (hc0 : cond2_0 i) (hc1 : ¬cond2_1 i)
    (x0 : Vec F S2048x2048 .bf16) (x1 : Vec F S2048x256 .bf16) (x2 : Vec F S1x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.HandBits.R2RunB.lean ====
import proofs.«123138_j12206297055730_1_alg».proof.Proof.HandBits.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

set_option maxHeartbeats 1000000 in
/-- The body where the output block is stored: the accumulator is entered at `xs0`; the inputs come back as they were, the
    output's buffer and the accumulator written with the pieces the run finds. -/
noncomputable def kernelRun2_B (hc0 : ¬cond2_0 i) (hc1 : cond2_1 i)
    (x0 : Vec F S2048x2048 .bf16) (x1 : Vec F S2048x256 .bf16) (x2 : Vec F S1x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.HandBits.R2Frame.lean ====
import proofs.«123138_j12206297055730_1_alg».proof.Proof.HandBits.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)
  (x0 : Vec F S2048x2048 .bf16) (x1 : Vec F S2048x256 .bf16) (x2 : Vec F S1x256 .f32) (xs0 : Vec F S2048x256 .f32)

/-- Each run's stores tile the buffer they go to, so they cover it. -/
theorem scover2_A (hc0 : cond2_0 i) (hc1 : ¬cond2_1 i) :
    ∀ y : S2048x256.Idx, ∃ pc ∈ (kernelRun2_A c i arg2 harg2 arg3 harg3 arg4 harg4 arg5 harg5 arg6 harg6 hc0 hc1 x0 x1 x2).2.1, y ∈ pc.1.set :=
  View.cover_of_tiledL _ S2048x256.size (by sl_kernel_rfl)
theorem cover2_B (hc0 : ¬cond2_0 i) (hc1 : cond2_1 i) :
    ∀ y : S2048x256.Idx, ∃ pc ∈ (kernelRun2_B c i arg2 harg2 arg3 harg3 arg4 harg4 arg5 harg5 arg6 harg6 hc0 hc1 x0 x1 x2 xs0).1, y ∈ pc.1.set :=
  View.cover_of_tiledL _ S2048x256.size (by sl_kernel_rfl)
theorem scover2_B (hc0 : ¬cond2_0 i) (hc1 : cond2_1 i) :
    ∀ y : S2048x256.Idx, ∃ pc ∈ (kernelRun2_B c i arg2 harg2 arg3 harg3 arg4 harg4 arg5 harg5 arg6 harg6 hc0 hc1 x0 x1 x2 xs0).2.1, y ∈ pc.1.set :=
  View.cover_of_tiledL _ S2048x256.size (by sl_kernel_rfl)

end Pieces

/-- The body's run at an even point, on that point's staging buffers and blocks. -/
abbrev runA2 (c : Dev nD) (t : Fin cfg2.N) (h0 : t.val % 2 = 0) :=
  kernelRun2_A (F := F) c (grid2.coords t) (ms2_0 t) (hs2_0 t) (ms2_1 t) (hs2_1 t) (ms2_2 t) (hs2_2 t) (ms2_3 t) (hs2_3 t) scM2_0 (Memref.isWhole_whole _)
    ((hcond2_0 t).mpr h0) (fun h => by have := (hcond2_1 t).mp h; omega) (iblk2 V c 0 t) (iblk2 V c 1 t) (iblk2 V c 2 t)
/-- The body's run at an odd point, the accumulator entered at `acc`. -/
abbrev runB2 (c : Dev nD) (t : Fin cfg2.N) (h0 : ¬t.val % 2 = 0) (acc : Vec F S2048x256 .f32) :=
  kernelRun2_B (F := F) c (grid2.coords t) (ms2_0 t) (hs2_0 t) (ms2_1 t) (hs2_1 t) (ms2_2 t) (hs2_2 t) (ms2_3 t) (hs2_3 t) scM2_0 (Memref.isWhole_whole _)
    (fun h => h0 ((hcond2_0 t).mp h)) ((hcond2_1 t).mpr (Nat.mod_two_ne_zero.mp h0)) (iblk2 V c 0 t) (iblk2 V c 1 t) (iblk2 V c 2 t) acc

/-- What the output's staging buffer (first) and the accumulator (second) hold after the body at position `n`: an odd
    position's run enters the accumulator at what the position before left. -/
def outsAt2 (c : Dev nD) : (n : ℕ) → n < cfg2.N → Vec F S2048x256 .f32 × Vec F S2048x256 .f32
  | 0, hn => (rd2 (runA2 V c ⟨0, hn⟩ rfl).1, rd2 (runA2 V c ⟨0, hn⟩ rfl).2.1)
  | n + 1, hn =>
    if h0 : (n + 1) % 2 = 0 then (rd2 (runA2 V c ⟨n + 1, hn⟩ h0).1, rd2 (runA2 V c ⟨n + 1, hn⟩ h0).2.1)
    else (rd2 (runB2 V c ⟨n + 1, hn⟩ h0 (outsAt2 c n (Nat.lt_of_succ_lt hn)).2).1,
      rd2 (runB2 V c ⟨n + 1, hn⟩ h0 (outsAt2 c n (Nat.lt_of_succ_lt hn)).2).2.1)

theorem outsAt2_A (c : Dev nD) (t : Fin cfg2.N) (h0 : t.val % 2 = 0) :
    outsAt2 V c t.val t.isLt = (rd2 (runA2 V c t h0).1, rd2 (runA2 V c t h0).2.1) := by
  obtain ⟨n, hn⟩ := t
  cases n with
  | zero => exact rfl
  | succ n => exact (dif_pos h0).trans rfl

/-- The accumulator as the position before `t` left it. -/
abbrev accBefore2 (c : Dev nD) (t : Fin cfg2.N) : Vec F S2048x256 .f32 :=
  (outsAt2 V c (t.val - 1) (Nat.lt_of_le_of_lt (Nat.sub_le _ _) t.isLt)).2

theorem outsAt2_B (c : Dev nD) (t : Fin cfg2.N) (h0 : ¬t.val % 2 = 0) :
    outsAt2 V c t.val t.isLt = (rd2 (runB2 V c t h0 (accBefore2 V c t)).1, rd2 (runB2 V c t h0 (accBefore2 V c t)).2.1) := by
  obtain ⟨n, hn⟩ := t
  cases n with
  | zero => exact absurd (Nat.zero_mod _) h0
  | succ n => exact (dif_neg h0).trans rfl

/-- The call's own state before position `n`: the accumulator at what the position before left, beside the rest. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 c) ∗ (∃ r, prngReg c r))

/-- Before any position the call's own state holds the accumulator at some contents. -/
theorem PhiS2_some (c : Dev nD) (n : ℕ) (h : n ≤ cfg2.N) :
    PhiS2 V c n h ⊢ iprop(iprop((∃ d, owns (c : Thread nD τ) scM2_0 fullShare d) ∗ others2 c) ∗ (∃ r, prngReg c r)) := by
  cases n with
  | zero => rw [show PhiS2 V c 0 h = Pipeline.ΦA spec2 c from rfl, PhiA2_eq]
  | succ n =>
    show iprop(iprop(owns (c : Thread nD τ) scM2_0 fullShare ((outsAt2 V c n h).2) ∗ others2 c) ∗ (∃ r, prngReg c r)) ⊢ _
    iintro ⟨⟨HS0, Hoth⟩, Hg⟩
    isplitr [Hg]; swap; · iexact Hg
    isplitr [Hoth]; swap; · iexact Hoth
    iexists _; iexact HS0

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 c) ∗ (∃ r, prngReg c r)) := by
  cases n with
  | zero => exact absurd rfl hz
  | succ n => rfl

/-- The call's proof data on core `c`: after the body each input's buffer holds its block and the output's `outsAt2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_3 (c : Dev nD) (t : Fin cfg2.N) : (dat2 V c).after 3 t = (outsAt2 V c t.val t.isLt).1 := rfl

theorem before2_0 (c : Dev nD) (t : Fin cfg2.N) (d) : (dat2 V c).before 0 t d = iblk2 V c 0 t :=
  before2_0_of V (dat2 V c) rfl (fun _ => rfl) t d
theorem before2_1 (c : Dev nD) (t : Fin cfg2.N) (d) : (dat2 V c).before 1 t d = iblk2 V c 1 t :=
  before2_1_of V (dat2 V c) rfl (fun _ => rfl) t d
theorem before2_2 (c : Dev nD) (t : Fin cfg2.N) (d) : (dat2 V c).before 2 t d = iblk2 V c 2 t :=
  before2_2_of V (dat2 V c) rfl (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the point's parity says which case runs; the call's own state hands it the accumulator and takes
    it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = iprop(iprop(owns (c : Thread nD τ) scM2_0 fullShare ((outsAt2 V c t.val t.isLt).2) ∗ others2 c) ∗ (∃ r, prngReg c r)) from rfl]
  rw [show (dat2 V c).leavesExact 0 t = owns (c : Thread nD τ) (ms2_0 t) fullShare (iblk2 V c 0 t) from by
    unfold Dat.leavesExact; rw [liveAt2_0 t]; rfl]
  rw [show (dat2 V c).leavesExact 1 t = owns (c : Thread nD τ) (ms2_1 t) fullShare (iblk2 V c 1 t) from by
    unfold Dat.leavesExact; rw [liveAt2_1 t]; rfl]
  rw [show (dat2 V c).leavesExact 2 t = owns (c : Thread nD τ) (ms2_2 t) fullShare (iblk2 V c 2 t) from by
    unfold Dat.leavesExact; rw [liveAt2_2 t]; rfl]
  by_cases h0 : t.val % 2 = 0
  · have hc0 : cond2_0 (grid2.coords t) := (hcond2_0 t).mpr h0
    have hc1 : ¬cond2_1 (grid2.coords t) := fun h => by have := (hcond2_1 t).mp h; omega
    rw [Dat.leavesExact_idle (dat2 V c) 3 t (idleAt2_3_A t hc0 hc1) (noFlush2_3_A t hc0 hc1)]
    rw [outsAt2_A V c t h0, show (dat2 V c).Φ t.castSucc = PhiS2 V c t.val (Nat.le_of_lt t.isLt) from rfl]
    dsimp only
    iintro ⟨HP, Ho, ⟨%d0, H0⟩, ⟨%d1, H1⟩, ⟨%d2, H2⟩, ⟨%d3, H3⟩⟩
    ihave HP' := (PhiS2_some V c _ _) $$ HP
    icases HP' with ⟨⟨HS0, Hoth⟩, Hg⟩
    iapply ((runA2 V c t h0).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover2_A _ _ _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · have hc0 : ¬cond2_0 (grid2.coords t) := fun h => h0 ((hcond2_0 t).mp h)
    have hc1 : cond2_1 (grid2.coords t) := (hcond2_1 t).mpr (by omega)
    have hz : t.val ≠ 0 := fun hz => h0 (by rw [hz])
    rw [show (dat2 V c).leavesExact 3 t = owns (c : Thread nD τ) (ms2_3 t) fullShare ((outsAt2 V c t.val t.isLt).1) from by
      unfold Dat.leavesExact; rw [liveAt2_3_B t hc0 hc1]; rfl]
    rw [outsAt2_B V c t h0]
    rw [show (dat2 V c).Φ t.castSucc = PhiS2 V c t.val (Nat.le_of_lt t.isLt) from rfl, PhiS2_pos V c _ _ hz]
    dsimp only
    iintro ⟨⟨⟨HS0, Hoth⟩, Hg⟩, Ho, ⟨%d0, H0⟩, ⟨%d1, H1⟩, ⟨%d2, H2⟩, ⟨%d3, H3⟩⟩
    iapply ((runB2 V c t h0 _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover2_B _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := by
  rw [PhiA2_eq]; exact PhiS2_some V c (Fin.last cfg2.N).val _

end Cert.Kernel.Hand

end
-- ==== Proof.HandBits.R3Shared.lean ====
import proofs.«123138_j12206297055730_1_alg».proof.Proof.Gen.Kernel.Launch
import proofs.«123138_j12206297055730_1_alg».proof.Proof.Gen.Kernel.Skeleton
import proofs.«123138_j12206297055730_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the call is entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The accumulator is reset exactly at the even points and the output block stored exactly at the odd ones. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 2 = 0 :=
  (by decide +kernel : ∀ t : Fin grid3.N, cond3_0 (grid3.coords t) ↔ t.val % 2 = 0)
abbrev cond3_1 (i : grid3.Coords) : Prop := k3_cond2 i = 1#1
theorem hcond3_1 : ∀ t : Fin cfg3.N, cond3_1 (grid3.coords t) ↔ t.val % 2 = 1 :=
  (by decide +kernel : ∀ t : Fin grid3.N, cond3_1 (grid3.coords t) ↔ t.val % 2 = 1)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem liveAt3_3_B : ∀ t : Fin cfg3.N, ¬cond3_0 (grid3.coords t) → cond3_1 (grid3.coords t) → cfg3.idle 3 (grid3.coords t) = false := by decide +kernel

abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x256 .f32 := win3_3.stage (cfg3.slots t 3)
abbrev hs3_3 (t : Fin cfg3.N) : (ms3_3 t).IsWhole := hstage3_3 ((cfg3.slots t 3).cast nbuf3_3)
abbrev scM3_0 : Memref sig .tc .vmem S2048x256 .f32 := Memref.whole cc3_scratch0
abbrev VS3_0 : View sig .tc .vmem S2048x256 .f32 := scM3_0.view

/-- What a buffer of the accumulator's shape reads once the pieces `L` are written over it, wherever they cover it. -/
abbrev rd3 (L : List (View.Piece (Elt F) S2048x256 .f32)) : Vec F S2048x256 .f32 :=
  VS3_0.read (Elt F) (VS3_0.writes (Elt F) VS3_0.junk L)

abbrev others3 (c : Dev nD) : sProp 𝕄 :=
  Pipeline.scopedRestBut (Ix := Unit) (Name := ℕ) (U := UR sig nD τ) (Lvl := ℕ) (Val := Elt F) spec3 c [cc3_scratch0]

/-- The call's own state at entry holds the accumulator at some contents, beside what the call never touches. -/
theorem PhiA3_eq (c : Dev nD) :
    (Pipeline.ΦA spec3 c : sProp 𝕄)
      = iprop(iprop((∃ d, owns (c : Thread nD τ) scM3_0 fullShare d) ∗ others3 c) ∗ (∃ r, prngReg c r)) := by
  unfold Pipeline.ΦA
  rw [show (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f)) ∗ others3 c)
      from Pipeline.scopedRest_split_of_list spec3 c [cc3_scratch0] (by decide) (by decide)]
  simp only [scM3_0, owns_whole]
  try rfl

end Cert.Kernel.Hand

end
-- ==== Proof.HandBits.R3RunA.lean ====
import proofs.«123138_j12206297055730_1_alg».proof.Proof.HandBits.R3Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

set_option maxHeartbeats 1000000 in
/-- The body where the accumulator is reset: the inputs and the output's buffer come back as they were, the accumulator
    written with the pieces the run finds. -/
noncomputable def kernelRun3_A (hc0 : cond3_0 i) (hc1 : ¬cond3_1 i)
    (x0 : Vec F S2048x2048 .bf16) (x1 : Vec F S2048x256 .bf16) (x2 : Vec F S1x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.HandBits.R3RunB.lean ====
import proofs.«123138_j12206297055730_1_alg».proof.Proof.HandBits.R3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

set_option maxHeartbeats 1000000 in
/-- The body where the output block is stored: the accumulator is entered at `xs0`; the inputs come back as they were, the
    output's buffer and the accumulator written with the pieces the run finds. -/
noncomputable def kernelRun3_B (hc0 : ¬cond3_0 i) (hc1 : cond3_1 i)
    (x0 : Vec F S2048x2048 .bf16) (x1 : Vec F S2048x256 .bf16) (x2 : Vec F S1x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.HandBits.R3Frame.lean ====
import proofs.«123138_j12206297055730_1_alg».proof.Proof.HandBits.R3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)
  (x0 : Vec F S2048x2048 .bf16) (x1 : Vec F S2048x256 .bf16) (x2 : Vec F S1x256 .f32) (xs0 : Vec F S2048x256 .f32)

/-- Each run's stores tile the buffer they go to, so they cover it. -/
theorem scover3_A (hc0 : cond3_0 i) (hc1 : ¬cond3_1 i) :
    ∀ y : S2048x256.Idx, ∃ pc ∈ (kernelRun3_A c i arg2 harg2 arg3 harg3 arg4 harg4 arg5 harg5 arg6 harg6 hc0 hc1 x0 x1 x2).2.1, y ∈ pc.1.set :=
  View.cover_of_tiledL _ S2048x256.size (by sl_kernel_rfl)
theorem cover3_B (hc0 : ¬cond3_0 i) (hc1 : cond3_1 i) :
    ∀ y : S2048x256.Idx, ∃ pc ∈ (kernelRun3_B c i arg2 harg2 arg3 harg3 arg4 harg4 arg5 harg5 arg6 harg6 hc0 hc1 x0 x1 x2 xs0).1, y ∈ pc.1.set :=
  View.cover_of_tiledL _ S2048x256.size (by sl_kernel_rfl)
theorem scover3_B (hc0 : ¬cond3_0 i) (hc1 : cond3_1 i) :
    ∀ y : S2048x256.Idx, ∃ pc ∈ (kernelRun3_B c i arg2 harg2 arg3 harg3 arg4 harg4 arg5 harg5 arg6 harg6 hc0 hc1 x0 x1 x2 xs0).2.1, y ∈ pc.1.set :=
  View.cover_of_tiledL _ S2048x256.size (by sl_kernel_rfl)

end Pieces

/-- The body's run at an even point, on that point's staging buffers and blocks. -/
abbrev runA3 (c : Dev nD) (t : Fin cfg3.N) (h0 : t.val % 2 = 0) :=
  kernelRun3_A (F := F) c (grid3.coords t) (ms3_0 t) (hs3_0 t) (ms3_1 t) (hs3_1 t) (ms3_2 t) (hs3_2 t) (ms3_3 t) (hs3_3 t) scM3_0 (Memref.isWhole_whole _)
    ((hcond3_0 t).mpr h0) (fun h => by have := (hcond3_1 t).mp h; omega) (iblk3 V c 0 t) (iblk3 V c 1 t) (iblk3 V c 2 t)
/-- The body's run at an odd point, the accumulator entered at `acc`. -/
abbrev runB3 (c : Dev nD) (t : Fin cfg3.N) (h0 : ¬t.val % 2 = 0) (acc : Vec F S2048x256 .f32) :=
  kernelRun3_B (F := F) c (grid3.coords t) (ms3_0 t) (hs3_0 t) (ms3_1 t) (hs3_1 t) (ms3_2 t) (hs3_2 t) (ms3_3 t) (hs3_3 t) scM3_0 (Memref.isWhole_whole _)
    (fun h => h0 ((hcond3_0 t).mp h)) ((hcond3_1 t).mpr (Nat.mod_two_ne_zero.mp h0)) (iblk3 V c 0 t) (iblk3 V c 1 t) (iblk3 V c 2 t) acc

/-- What the output's staging buffer (first) and the accumulator (second) hold after the body at position `n`: an odd
    position's run enters the accumulator at what the position before left. -/
def outsAt3 (c : Dev nD) : (n : ℕ) → n < cfg3.N → Vec F S2048x256 .f32 × Vec F S2048x256 .f32
  | 0, hn => (rd3 (runA3 V c ⟨0, hn⟩ rfl).1, rd3 (runA3 V c ⟨0, hn⟩ rfl).2.1)
  | n + 1, hn =>
    if h0 : (n + 1) % 2 = 0 then (rd3 (runA3 V c ⟨n + 1, hn⟩ h0).1, rd3 (runA3 V c ⟨n + 1, hn⟩ h0).2.1)
    else (rd3 (runB3 V c ⟨n + 1, hn⟩ h0 (outsAt3 c n (Nat.lt_of_succ_lt hn)).2).1,
      rd3 (runB3 V c ⟨n + 1, hn⟩ h0 (outsAt3 c n (Nat.lt_of_succ_lt hn)).2).2.1)

theorem outsAt3_A (c : Dev nD) (t : Fin cfg3.N) (h0 : t.val % 2 = 0) :
    outsAt3 V c t.val t.isLt = (rd3 (runA3 V c t h0).1, rd3 (runA3 V c t h0).2.1) := by
  obtain ⟨n, hn⟩ := t
  cases n with
  | zero => exact rfl
  | succ n => exact (dif_pos h0).trans rfl

/-- The accumulator as the position before `t` left it. -/
abbrev accBefore3 (c : Dev nD) (t : Fin cfg3.N) : Vec F S2048x256 .f32 :=
  (outsAt3 V c (t.val - 1) (Nat.lt_of_le_of_lt (Nat.sub_le _ _) t.isLt)).2

theorem outsAt3_B (c : Dev nD) (t : Fin cfg3.N) (h0 : ¬t.val % 2 = 0) :
    outsAt3 V c t.val t.isLt = (rd3 (runB3 V c t h0 (accBefore3 V c t)).1, rd3 (runB3 V c t h0 (accBefore3 V c t)).2.1) := by
  obtain ⟨n, hn⟩ := t
  cases n with
  | zero => exact absurd (Nat.zero_mod _) h0
  | succ n => exact (dif_neg h0).trans rfl

/-- The call's own state before position `n`: the accumulator at what the position before left, beside the rest. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ others3 c) ∗ (∃ r, prngReg c r))

/-- Before any position the call's own state holds the accumulator at some contents. -/
theorem PhiS3_some (c : Dev nD) (n : ℕ) (h : n ≤ cfg3.N) :
    PhiS3 V c n h ⊢ iprop(iprop((∃ d, owns (c : Thread nD τ) scM3_0 fullShare d) ∗ others3 c) ∗ (∃ r, prngReg c r)) := by
  cases n with
  | zero => rw [show PhiS3 V c 0 h = Pipeline.ΦA spec3 c from rfl, PhiA3_eq]
  | succ n =>
    show iprop(iprop(owns (c : Thread nD τ) scM3_0 fullShare ((outsAt3 V c n h).2) ∗ others3 c) ∗ (∃ r, prngReg c r)) ⊢ _
    iintro ⟨⟨HS0, Hoth⟩, Hg⟩
    isplitr [Hg]; swap; · iexact Hg
    isplitr [Hoth]; swap; · iexact Hoth
    iexists _; iexact HS0

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ others3 c) ∗ (∃ r, prngReg c r)) := by
  cases n with
  | zero => exact absurd rfl hz
  | succ n => rfl

/-- The call's proof data on core `c`: after the body each input's buffer holds its block and the output's `outsAt3`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl
theorem after3_3 (c : Dev nD) (t : Fin cfg3.N) : (dat3 V c).after 3 t = (outsAt3 V c t.val t.isLt).1 := rfl

theorem before3_0 (c : Dev nD) (t : Fin cfg3.N) (d) : (dat3 V c).before 0 t d = iblk3 V c 0 t :=
  before3_0_of V (dat3 V c) rfl (fun _ => rfl) t d
theorem before3_1 (c : Dev nD) (t : Fin cfg3.N) (d) : (dat3 V c).before 1 t d = iblk3 V c 1 t :=
  before3_1_of V (dat3 V c) rfl (fun _ => rfl) t d
theorem before3_2 (c : Dev nD) (t : Fin cfg3.N) (d) : (dat3 V c).before 2 t d = iblk3 V c 2 t :=
  before3_2_of V (dat3 V c) rfl (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the point's parity says which case runs; the call's own state hands it the accumulator and takes
    it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = iprop(iprop(owns (c : Thread nD τ) scM3_0 fullShare ((outsAt3 V c t.val t.isLt).2) ∗ others3 c) ∗ (∃ r, prngReg c r)) from rfl]
  rw [show (dat3 V c).leavesExact 0 t = owns (c : Thread nD τ) (ms3_0 t) fullShare (iblk3 V c 0 t) from by
    unfold Dat.leavesExact; rw [liveAt3_0 t]; rfl]
  rw [show (dat3 V c).leavesExact 1 t = owns (c : Thread nD τ) (ms3_1 t) fullShare (iblk3 V c 1 t) from by
    unfold Dat.leavesExact; rw [liveAt3_1 t]; rfl]
  rw [show (dat3 V c).leavesExact 2 t = owns (c : Thread nD τ) (ms3_2 t) fullShare (iblk3 V c 2 t) from by
    unfold Dat.leavesExact; rw [liveAt3_2 t]; rfl]
  by_cases h0 : t.val % 2 = 0
  · have hc0 : cond3_0 (grid3.coords t) := (hcond3_0 t).mpr h0
    have hc1 : ¬cond3_1 (grid3.coords t) := fun h => by have := (hcond3_1 t).mp h; omega
    rw [Dat.leavesExact_idle (dat3 V c) 3 t (idleAt3_3_A t hc0 hc1) (noFlush3_3_A t hc0 hc1)]
    rw [outsAt3_A V c t h0, show (dat3 V c).Φ t.castSucc = PhiS3 V c t.val (Nat.le_of_lt t.isLt) from rfl]
    dsimp only
    iintro ⟨HP, Ho, ⟨%d0, H0⟩, ⟨%d1, H1⟩, ⟨%d2, H2⟩, ⟨%d3, H3⟩⟩
    ihave HP' := (PhiS3_some V c _ _) $$ HP
    icases HP' with ⟨⟨HS0, Hoth⟩, Hg⟩
    iapply ((runA3 V c t h0).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover3_A _ _ _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · have hc0 : ¬cond3_0 (grid3.coords t) := fun h => h0 ((hcond3_0 t).mp h)
    have hc1 : cond3_1 (grid3.coords t) := (hcond3_1 t).mpr (by omega)
    have hz : t.val ≠ 0 := fun hz => h0 (by rw [hz])
    rw [show (dat3 V c).leavesExact 3 t = owns (c : Thread nD τ) (ms3_3 t) fullShare ((outsAt3 V c t.val t.isLt).1) from by
      unfold Dat.leavesExact; rw [liveAt3_3_B t hc0 hc1]; rfl]
    rw [outsAt3_B V c t h0]
    rw [show (dat3 V c).Φ t.castSucc = PhiS3 V c t.val (Nat.le_of_lt t.isLt) from rfl, PhiS3_pos V c _ _ hz]
    dsimp only
    iintro ⟨⟨⟨HS0, Hoth⟩, Hg⟩, Ho, ⟨%d0, H0⟩, ⟨%d1, H1⟩, ⟨%d2, H2⟩, ⟨%d3, H3⟩⟩
    iapply ((runB3 V c t h0 _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover3_B _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B _ _ _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl

theorem hout3 (c : Dev nD) : (dat3 V c).Φ (Fin.last cfg3.N) ⊢ Pipeline.ΦA spec3 c := by
  rw [PhiA3_eq]; exact PhiS3_some V c (Fin.last cfg3.N).val _

end Cert.Kernel.Hand

end
-- ==== Proof.HandBits.Assemble.lean ====
import proofs.«123138_j12206297055730_1_alg».proof.Proof.HandBits.R0Frame
import proofs.«123138_j12206297055730_1_alg».proof.Proof.HandBits.R1Frame
import proofs.«123138_j12206297055730_1_alg».proof.Proof.HandBits.R2Frame
import proofs.«123138_j12206297055730_1_alg».proof.Proof.HandBits.R3Frame
import proofs.«123138_j12206297055730_1_alg».proof.Proof.Gen.Kernel.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb

abbrev W3 : Dev nD → Valuation τ sig (Elt F) := fun c => StableHlo.after hostOps1 (W2 m c)
abbrev U3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N :=
  Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) :=
  Pipeline.withArrays_of_ne spec1 c _ _ b hb

abbrev W5 : Dev nD → Valuation τ sig (Elt F) := fun c => StableHlo.after hostOps2 (W4 m c)
abbrev U5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N :=
  Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) :=
  Pipeline.withArrays_of_ne spec2 c _ _ b hb

abbrev W7 : Dev nD → Valuation τ sig (Elt F) := fun c => StableHlo.after hostOps3 (W6 m c)
abbrev U7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N :=
  Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) :=
  Pipeline.withArrays_of_ne spec3 c _ _ b hb

abbrev W9 : Dev nD → Valuation τ sig (Elt F) := fun c => StableHlo.after hostOps4 (W8 m c)

theorem W9_kept (c : Dev nD) (b : Ref sig .tc) (h0 : b ∉ hostOps0_W) (h1 : b ∉ hostOps1_W) (h2 : b ∉ hostOps2_W) (h3 : b ∉ hostOps3_W) (h4 : b ∉ hostOps4_W)
    (g0 : ∀ w, Pipeline.arrRef spec0 w ≠ b) (g1 : ∀ w, Pipeline.arrRef spec1 w ≠ b) (g2 : ∀ w, Pipeline.arrRef spec2 w ≠ b) (g3 : ∀ w, Pipeline.arrRef spec3 w ≠ b) :
    W9 m c (Proc.devRef .tc b) = m ((c : Thread nD τ).loc b) :=
  (StableHlo.after_of_writes_sub hostOps4 _ hostOps4_writes h4).trans <| (W8_of_ne m c b g3).trans <|
  (StableHlo.after_of_writes_sub hostOps3 _ hostOps3_writes h3).trans <| (W6_of_ne m c b g2).trans <|
  (StableHlo.after_of_writes_sub hostOps2 _ hostOps2_writes h2).trans <| (W4_of_ne m c b g1).trans <|
  (StableHlo.after_of_writes_sub hostOps1 _ hostOps1_writes h1).trans <| (W2_of_ne m c b g0).trans <|
  StableHlo.after_of_writes_sub hostOps0 _ hostOps0_writes h0

def pdats : (p : Fin 4) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
  | ⟨3, _⟩ => fun c => dat3 (U7 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W9 m c) ∗ ∃ r, prngReg c r)

/-- One call: the buffers are held at `V` before it and at `V'` after it, `V'` being `V` with the call's arrays at their last contents. -/
def reg {p : Fin 4} (lf : Pipeline.LaunchFacts (nD := nD) (τ := τ) cfgs p) (V V' : Dev nD → Valuation τ sig (Elt F))
    (hq : ∀ c w, (pdats m p c).q w = fullShare) (howed : ∀ c t, (pdats m p c).owed t = 0) (hrec : ∀ c, (pdats m p c).recorded 0 = Set.univ)
    (hA : ∀ c w, (pdats m p c).A w = V c (Pipeline.arrRef (cfgs p).spec w))
    (hbody : ∀ c, BodyObligation (pdats m p c) (defs₀ (F := F)) Variants.none () Set.univ)
    (hin : ∀ c, Pipeline.ΦA (cfgs p).spec c ⊢ (pdats m p c).Φ 0)
    (hout : ∀ c, (pdats m p c).Φ (Fin.last _) ⊢ Pipeline.ΦA (cfgs p).spec c)
    (harr : ∀ c w, V' c (Proc.devRef .tc (Pipeline.arrRef (cfgs p).spec w)) = (pdats m p c).arrAt w (cfgs p).N)
    (hne : ∀ c (b : Ref sig .tc), (∀ w, Pipeline.arrRef (cfgs p).spec w ≠ b) → V' c (Proc.devRef .tc b) = V c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m) lf.win lf.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    rw [Pipeline.ownSems0_none]
    have h := hout c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => V c b) (fun b => V' c b) ((pdats m p c).arrAt · (cfgs p).N) (fun w => (harr c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : Pipeline.RegionSeg (pcfgs (F := F)) adm (pdats m) () defs₀ 𝒱₀ L lv 0 :=
  reg m launch0 (W1 m) (W2 m) (fun _ _ => rfl) (fun _ _ => rfl) (fun _ => rfl) (fun _ _ => rfl) (body_obligation0 (U1 m)) (hin0 (U1 m)) (hout0 (U1 m)) (W2_arr m) (W2_of_ne m)
def reg1 : Pipeline.RegionSeg (pcfgs (F := F)) adm (pdats m) () defs₀ 𝒱₀ L lv 1 :=
  reg m launch1 (W3 m) (W4 m) (fun _ _ => rfl) (fun _ _ => rfl) (fun _ => rfl) (fun _ _ => rfl) (body_obligation1 (U3 m)) (hin1 (U3 m)) (hout1 (U3 m)) (W4_arr m) (W4_of_ne m)
def reg2 : Pipeline.RegionSeg (pcfgs (F := F)) adm (pdats m) () defs₀ 𝒱₀ L lv 2 :=
  reg m launch2 (W5 m) (W6 m) (fun _ _ => rfl) (fun _ _ => rfl) (fun _ => rfl) (fun _ _ => rfl) (body_obligation2 (U5 m)) (hin2 (U5 m)) (hout2 (U5 m)) (W6_arr m) (W6_of_ne m)
def reg3 : Pipeline.RegionSeg (pcfgs (F := F)) adm (pdats m) () defs₀ 𝒱₀ L lv 3 :=
  reg m launch3 (W7 m) (W8 m) (fun _ _ => rfl) (fun _ _ => rfl) (fun _ => rfl) (fun _ _ => rfl) (body_obligation3 (U7 m)) (hin3 (U7 m)) (hout3 (U7 m)) (W8_arr m) (W8_of_ne m)

abbrev mainSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]

theorem main_run (c : Dev nD) : main (F := F) c = Pipeline.Seg.run (mainSegs m) := (main_chain c).trans (by chain_rfl)

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m c) ∗ R c) : sProp 𝕄) ⊢ _
        iintro ⟨Hh, Hp, Ho⟩
        isplitr [Ho]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A reference written by no host stretch and by no call holds at the end what it held at launch. -/
theorem kept_of_run {μ : (ℓ : Loc nD τ sig) → Buf (Elt F) ℓ} {c : Dev nD}
    (h : ∀ b ∈ Pipeline.ucRefs τ sig, μ (((c : Thread nD τ)).1, b) = W9 m c b) (b : Ref sig .tc)
    (hb : ¬ (Proc.devRef .tc b : DevRef τ sig).isScoped ∧ b ∉ hostOps0_W ∧ b ∉ hostOps1_W ∧ b ∉ hostOps2_W ∧ b ∉ hostOps3_W ∧ b ∉ hostOps4_W
      ∧ (∀ w, Pipeline.arrRef spec0 w ≠ b) ∧ (∀ w, Pipeline.arrRef spec1 w ≠ b) ∧ (∀ w, Pipeline.arrRef spec2 w ≠ b) ∧ ∀ w, Pipeline.arrRef spec3 w ≠ b) :
    μ ((c : Thread nD τ).loc b) = m ((c : Thread nD τ).loc b) := by
  obtain ⟨hu, h0, h1, h2, h3, h4, g0, g1, g2, g3⟩ := hb
  exact (h _ (mem_uc b hu)).trans (W9_kept m c b h0 h1 h2 h3 h4 g0 g1 g2 g3)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨kept_of_run m (h c) main_arg0 (by decide), kept_of_run m (h c) main_arg1 (by decide),
    kept_of_run m (h c) main_arg2 (by decide), kept_of_run m (h c) main_arg3 (by decide), kept_of_run m (h c) main_arg4 (by decide),
    kept_of_run m (h c) main_arg5 (by decide), kept_of_run m (h c) main_arg6 (by decide), kept_of_run m (h c) main_arg7 (by decide),
    kept_of_run m (h c) main_arg8 (by decide)⟩) (run_all m ρ)

end Cert.Kernel.Hand

end
-- ==== Proof.HandIdeal.R0Shared.lean ====
import proofs.«123138_j12206297055730_1_alg».proof.Proof.Gen.KernelIdeal.Launch
import proofs.«123138_j12206297055730_1_alg».proof.Proof.Gen.KernelIdeal.Skeleton
import proofs.«123138_j12206297055730_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the call is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The accumulator is reset exactly where the last grid coordinate is 0 and the output block stored exactly where it is 7. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel

theorem liveAt0_2_C : ∀ t : Fin cfg0.N, cond0_1 (grid0.coords t) → cfg0.idle 2 (grid0.coords t) = false := by decide +kernel

abbrev VO0_2 : View sig .tc .vmem S1024x2048 .bf16 := (Memref.whole cc0_stg2_0 : Memref sig .tc .vmem S1024x2048 .bf16).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)

abbrev scM0_0 : Memref sig .tc .vmem S1024x2048 .f32 := Memref.whole cc0_scratch0
abbrev VS0_0 : View sig .tc .vmem S1024x2048 .f32 := scM0_0.view

/-- What a buffer of the accumulator's shape, and one of the output block's, reads once the pieces `L` are written over it. -/
abbrev rd0 (L : List (View.Piece (Elt F) S1024x2048 .f32)) : Vec F S1024x2048 .f32 :=
  VS0_0.read (Elt F) (VS0_0.writes (Elt F) VS0_0.junk L)
abbrev ro0 (L : List (View.Piece (Elt F) S1024x2048 .bf16)) : Vec F S1024x2048 .bf16 :=
  VO0_2.read (Elt F) (VO0_2.writes (Elt F) VO0_2.junk L)

abbrev others0 (c : Dev nD) : sProp 𝕄 :=
  Pipeline.scopedRestBut (Ix := Unit) (Name := ℕ) (U := UR sig nD τ) (Lvl := ℕ) (Val := Elt F) spec0 c [cc0_scratch0]

/-- The call's own state at entry holds the accumulator at some contents, beside what the call never touches. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA
  rw [show (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f)) ∗ others0 c)
      from Pipeline.scopedRest_split_of_list spec0 c [cc0_scratch0] (by decide) (by decide)]
  simp only [scM0_0, owns_whole]
  try rfl

end Cert.KernelIdeal.Hand

end
-- ==== Proof.HandIdeal.R0RunA.lean ====
import proofs.«123138_j12206297055730_1_alg».proof.Proof.HandIdeal.R0Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole)

set_option maxHeartbeats 1000000 in
/-- The body where the accumulator is reset: the inputs and the output's buffer come back as they were, the accumulator
    written with the pieces the run finds. -/
noncomputable def kernelRun0_A (hc0 : cond0_0 i) (hc1 : ¬cond0_1 i)
    (x0 : Vec F S1024x512 .f32) (x1 : Vec F S512x2048 .f32) :
    Σ' (L2 : List (View.Piece (Elt F) S1024x2048 .bf16)), { LS0 : List (View.Piece (Elt F) S1024x2048 .f32) //
      ∀ (xi2 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg3 harg3 arg4 harg4 arg5 harg5 arg6 harg6) K } := by
  refine ⟨[], ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.HandIdeal.R0RunB.lean ====
import proofs.«123138_j12206297055730_1_alg».proof.Proof.HandIdeal.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole)

set_option maxHeartbeats 1000000 in
/-- The body between the reset and the store: the accumulator is entered at `xs0` and written with the pieces the run finds. -/
noncomputable def kernelRun0_B (hc0 : ¬cond0_0 i) (hc1 : ¬cond0_1 i)
    (x0 : Vec F S1024x512 .f32) (x1 : Vec F S512x2048 .f32) (xs0 : Vec F S1024x2048 .f32) :
    Σ' (L2 : List (View.Piece (Elt F) S1024x2048 .bf16)), { LS0 : List (View.Piece (Elt F) S1024x2048 .f32) //
      ∀ (xi2 : Vec F S1024x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg3 harg3 arg4 harg4 arg5 harg5 arg6 harg6) K } := by
  refine ⟨[], ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.HandIdeal.R0RunC.lean ====
import proofs.«123138_j12206297055730_1_alg».proof.Proof.HandIdeal.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole)

set_option maxHeartbeats 1000000 in
/-- The body where the output block is stored: the accumulator is entered at `xs0`; the output's buffer and the accumulator
    are written with the pieces the run finds. -/
noncomputable def kernelRun0_C (hc0 : ¬cond0_0 i) (hc1 : cond0_1 i)
    (x0 : Vec F S1024x512 .f32) (x1 : Vec F S512x2048 .f32) (xs0 : Vec F S1024x2048 .f32) :
    Σ' (L2 : List (View.Piece (Elt F) S1024x2048 .bf16)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.HandIdeal.R0Frame.lean ====
import proofs.«123138_j12206297055730_1_alg».proof.Proof.HandIdeal.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole)
  (x0 : Vec F S1024x512 .f32) (x1 : Vec F S512x2048 .f32) (xs0 : Vec F S1024x2048 .f32)

/-- Each run's stores tile the buffer they go to, so they cover it. -/
theorem scover0_A (hc0 : cond0_0 i) (hc1 : ¬cond0_1 i) :
    ∀ y : S1024x2048.Idx, ∃ pc ∈ (kernelRun0_A c i arg3 harg3 arg4 harg4 arg5 harg5 arg6 harg6 hc0 hc1 x0 x1).2.1, y ∈ pc.1.set :=
  View.cover_of_tiledL _ S1024x2048.size (by sl_kernel_rfl)
theorem scover0_B (hc0 : ¬cond0_0 i) (hc1 : ¬cond0_1 i) :
    ∀ y : S1024x2048.Idx, ∃ pc ∈ (kernelRun0_B c i arg3 harg3 arg4 harg4 arg5 harg5 arg6 harg6 hc0 hc1 x0 x1 xs0).2.1, y ∈ pc.1.set :=
  View.cover_of_tiledL _ S1024x2048.size (by sl_kernel_rfl)
theorem cover0_C (hc0 : ¬cond0_0 i) (hc1 : cond0_1 i) :
    ∀ y : S1024x2048.Idx, ∃ pc ∈ (kernelRun0_C c i arg3 harg3 arg4 harg4 arg5 harg5 arg6 harg6 hc0 hc1 x0 x1 xs0).1, y ∈ pc.1.set :=
  View.cover_of_tiledL _ S1024x2048.size (by sl_kernel_rfl)
theorem scover0_C (hc0 : ¬cond0_0 i) (hc1 : cond0_1 i) :
    ∀ y : S1024x2048.Idx, ∃ pc ∈ (kernelRun0_C c i arg3 harg3 arg4 harg4 arg5 harg5 arg6 harg6 hc0 hc1 x0 x1 xs0).2.1, y ∈ pc.1.set :=
  View.cover_of_tiledL _ S1024x2048.size (by sl_kernel_rfl)

end Pieces

/-- The body's run at a point, by the point's position in its run of eight, on that point's staging buffers and blocks; after
    the first of the eight the accumulator is entered at `acc`. -/
abbrev runA0 (c : Dev nD) (t : Fin cfg0.N) (h0 : t.val % 8 = 0) :=
  kernelRun0_A (F := F) c (grid0.coords t) (ms0_0 t) (hs0_0 t) (ms0_1 t) (hs0_1 t) (ms0_2 t) (hs0_2 t) scM0_0 (Memref.isWhole_whole _)
    ((hcond0_0 t).mpr h0) (fun h => by have := (hcond0_1 t).mp h; omega) (iblk0 V c 0 t) (iblk0 V c 1 t)
abbrev runB0 (c : Dev nD) (t : Fin cfg0.N) (h0 : ¬t.val % 8 = 0) (h1 : ¬t.val % 8 = 7) (acc : Vec F S1024x2048 .f32) :=
  kernelRun0_B (F := F) c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (iblk0 V c 0 t) (iblk0 V c 1 t) acc
abbrev runC0 (c : Dev nD) (t : Fin cfg0.N) (h0 : ¬t.val % 8 = 0) (h1 : t.val % 8 = 7) (acc : Vec F S1024x2048 .f32) :=
  kernelRun0_C (F := F) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk0 V c 0 t) (iblk0 V c 1 t) acc

/-- What the output's staging buffer (first) and the accumulator (second) hold after the body at position `n`. -/
def outsAt0 (c : Dev nD) : (n : ℕ) → n < cfg0.N → Vec F S1024x2048 .bf16 × Vec F S1024x2048 .f32
  | 0, hn => (ro0 (runA0 V c ⟨0, hn⟩ rfl).1, rd0 (runA0 V c ⟨0, hn⟩ rfl).2.1)
  | n + 1, hn =>
    if h0 : (n + 1) % 8 = 0 then (ro0 (runA0 V c ⟨n + 1, hn⟩ h0).1, rd0 (runA0 V c ⟨n + 1, hn⟩ h0).2.1)
    else if h1 : (n + 1) % 8 = 7 then
      (ro0 (runC0 V c ⟨n + 1, hn⟩ h0 h1 (outsAt0 c n (Nat.lt_of_succ_lt hn)).2).1,
        rd0 (runC0 V c ⟨n + 1, hn⟩ h0 h1 (outsAt0 c n (Nat.lt_of_succ_lt hn)).2).2.1)
    else
      (ro0 (runB0 V c ⟨n + 1, hn⟩ h0 h1 (outsAt0 c n (Nat.lt_of_succ_lt hn)).2).1,
        rd0 (runB0 V c ⟨n + 1, hn⟩ h0 h1 (outsAt0 c n (Nat.lt_of_succ_lt hn)).2).2.1)

/-- The accumulator as the position before `t` left it. -/
abbrev accBefore0 (c : Dev nD) (t : Fin cfg0.N) : Vec F S1024x2048 .f32 :=
  (outsAt0 V c (t.val - 1) (Nat.lt_of_le_of_lt (Nat.sub_le _ _) t.isLt)).2

theorem outsAt0_A (c : Dev nD) (t : Fin cfg0.N) (h0 : t.val % 8 = 0) :
    outsAt0 V c t.val t.isLt = (ro0 (runA0 V c t h0).1, rd0 (runA0 V c t h0).2.1) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt
      = (ro0 (runB0 V c t h0 h1 (accBefore0 V c t)).1, rd0 (runB0 V c t h0 h1 (accBefore0 V c t)).2.1) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) :
    outsAt0 V c t.val t.isLt
      = (ro0 (runC0 V c t h0 h1 (accBefore0 V c t)).1, rd0 (runC0 V c t h0 h1 (accBefore0 V c t)).2.1) := by
  obtain ⟨n, hn⟩ := t
  cases n with
  | zero => exact absurd (Nat.zero_mod _) h0
  | succ n => exact (dif_neg h0).trans ((dif_pos h1).trans rfl)

/-- The call's own state before position `n`: the accumulator at what the position before left, beside the rest. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

/-- Before any position the call's own state holds the accumulator at some contents. -/
theorem PhiS0_some (c : Dev nD) (n : ℕ) (h : n ≤ cfg0.N) :
    PhiS0 V c n h ⊢ iprop(iprop((∃ d, owns (c : Thread nD τ) scM0_0 fullShare d) ∗ others0 c) ∗ (∃ r, prngReg c r)) := by
  cases n with
  | zero => rw [show PhiS0 V c 0 h = Pipeline.ΦA spec0 c from rfl, PhiA0_eq]
  | succ n =>
    show iprop(iprop(owns (c : Thread nD τ) scM0_0 fullShare ((outsAt0 V c n h).2) ∗ others0 c) ∗ (∃ r, prngReg c r)) ⊢ _
    iintro ⟨⟨HS0, Hoth⟩, Hg⟩
    isplitr [Hg]; swap; · iexact Hg
    isplitr [Hoth]; swap; · iexact Hoth
    iexists _; iexact HS0

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-- The call's proof data on core `c`: after the body each input's buffer holds its block and the output's `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem after0_2 (c : Dev nD) (t : Fin cfg0.N) : (dat0 V c).after 2 t = (outsAt0 V c t.val t.isLt).1 := rfl

theorem before0_0 (c : Dev nD) (t : Fin cfg0.N) (d) : (dat0 V c).before 0 t d = iblk0 V c 0 t :=
  before0_0_of V (dat0 V c) rfl (fun _ => rfl) t d
theorem before0_1 (c : Dev nD) (t : Fin cfg0.N) (d) : (dat0 V c).before 1 t d = iblk0 V c 1 t :=
  before0_1_of V (dat0 V c) rfl (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the point's position in its run of eight says which case runs; the call's own state hands it the
    accumulator and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = iprop(iprop(owns (c : Thread nD τ) scM0_0 fullShare ((outsAt0 V c t.val t.isLt).2) ∗ others0 c) ∗ (∃ r, prngReg c r)) from rfl]
  rw [show (dat0 V c).leavesExact 0 t = owns (c : Thread nD τ) (ms0_0 t) fullShare (iblk0 V c 0 t) from by
    unfold Dat.leavesExact; rw [liveAt0_0 t]; rfl]
  rw [show (dat0 V c).leavesExact 1 t = owns (c : Thread nD τ) (ms0_1 t) fullShare (iblk0 V c 1 t) from by
    unfold Dat.leavesExact; rw [liveAt0_1 t]; rfl]
  rw [show (dat0 V c).Φ t.castSucc = PhiS0 V c t.val (Nat.le_of_lt t.isLt) from rfl]
  by_cases h0 : t.val % 8 = 0
  · have hc1 : ¬cond0_1 (grid0.coords t) := fun h => by have := (hcond0_1 t).mp h; omega
    rw [Dat.leavesExact_idle (dat0 V c) 2 t (idleAt0_2 t hc1) (noFlush0_2 t hc1), outsAt0_A V c t h0]
    dsimp only
    iintro ⟨HP, Ho, ⟨%d0, H0⟩, ⟨%d1, H1⟩, ⟨%d2, H2⟩⟩
    ihave HP' := (PhiS0_some V c _ _) $$ HP
    icases HP' with ⟨⟨HS0, Hoth⟩, Hg⟩
    iapply ((runA0 V c t h0).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_A _ _ _ _ _ _ _ _ _ _ _ _ _ _)
        iexact Hoth
      iexact Hg
    isplitl [Ho]; · iexact Ho
    isplitl [H0]; · iexact H0
    isplitl [H1]; · iexact H1
    iexists _; iexact H2
  · have hz : t.val ≠ 0 := fun hz => h0 (by rw [hz])
    rw [PhiS0_pos V c _ _ hz]
    by_cases h1 : t.val % 8 = 7
    · have hc1 : cond0_1 (grid0.coords t) := (hcond0_1 t).mpr h1
      rw [show (dat0 V c).leavesExact 2 t = owns (c : Thread nD τ) (ms0_2 t) fullShare ((outsAt0 V c t.val t.isLt).1) from by
        unfold Dat.leavesExact; rw [liveAt0_2_C t hc1]; rfl]
      rw [outsAt0_C V c t h0 h1]
      dsimp only
      iintro ⟨⟨⟨HS0, Hoth⟩, Hg⟩, Ho, ⟨%d0, H0⟩, ⟨%d1, H1⟩, ⟨%d2, H2⟩⟩
      iapply ((runC0 V c t h0 h1 _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C _ _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C _ _ _ _ _ _ _ _ _ _ _ _ _ _ _)
    · have hc1 : ¬cond0_1 (grid0.coords t) := fun h => h1 ((hcond0_1 t).mp h)
      rw [Dat.leavesExact_idle (dat0 V c) 2 t (idleAt0_2 t hc1) (noFlush0_2 t hc1), outsAt0_B V c t h0 h1]
      dsimp only
      iintro ⟨⟨⟨HS0, Hoth⟩, Hg⟩, Ho, ⟨%d0, H0⟩, ⟨%d1, H1⟩, ⟨%d2, H2⟩⟩
      iapply ((runB0 V c t h0 h1 _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B _ _ _ _ _ _ _ _ _ _ _ _ _ _ _)
          iexact Hoth
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c := by
  rw [PhiA0_eq]; exact PhiS0_some V c (Fin.last cfg0.N).val _

end Cert.KernelIdeal.Hand

end
-- ==== Proof.HandIdeal.R1Shared.lean ====
import proofs.«123138_j12206297055730_1_alg».proof.Proof.Gen.KernelIdeal.Launch
import proofs.«123138_j12206297055730_1_alg».proof.Proof.Gen.KernelIdeal.Skeleton
import proofs.«123138_j12206297055730_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the call is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The accumulator is reset exactly at the even points and the output block stored exactly at the odd ones. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem liveAt1_3_B : ∀ t : Fin cfg1.N, ¬cond1_0 (grid1.coords t) → cond1_1 (grid1.coords t) → cfg1.idle 3 (grid1.coords t) = false := by decide +kernel

abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
abbrev scM1_0 : Memref sig .tc .vmem S2048x256 .f32 := Memref.whole cc1_scratch0
abbrev VS1_0 : View sig .tc .vmem S2048x256 .f32 := scM1_0.view

/-- What a buffer of the accumulator's shape reads once the pieces `L` are written over it, wherever they cover it. -/
abbrev rd1 (L : List (View.Piece (Elt F) S2048x256 .f32)) : Vec F S2048x256 .f32 :=
  VS1_0.read (Elt F) (VS1_0.writes (Elt F) VS1_0.junk L)

abbrev others1 (c : Dev nD) : sProp 𝕄 :=
  Pipeline.scopedRestBut (Ix := Unit) (Name := ℕ) (U := UR sig nD τ) (Lvl := ℕ) (Val := Elt F) spec1 c [cc1_scratch0]

/-- The call's own state at entry holds the accumulator at some contents, beside what the call never touches. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA
  rw [show (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)) ∗ others1 c)
      from Pipeline.scopedRest_split_of_list spec1 c [cc1_scratch0] (by decide) (by decide)]
  simp only [scM1_0, owns_whole]
  try rfl

end Cert.KernelIdeal.Hand

end
-- ==== Proof.HandIdeal.R1RunA.lean ====
import proofs.«123138_j12206297055730_1_alg».proof.Proof.HandIdeal.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

set_option maxHeartbeats 1000000 in
/-- The body where the accumulator is reset: the inputs and the output's buffer come back as they were, the accumulator
    written with the pieces the run finds. -/
noncomputable def kernelRun1_A (hc0 : cond1_0 i) (hc1 : ¬cond1_1 i)
    (x0 : Vec F S2048x2048 .bf16) (x1 : Vec F S2048x256 .bf16) (x2 : Vec F S1x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.HandIdeal.R1RunB.lean ====
import proofs.«123138_j12206297055730_1_alg».proof.Proof.HandIdeal.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

set_option maxHeartbeats 1000000 in
/-- The body where the output block is stored: the accumulator is entered at `xs0`; the inputs come back as they were, the
    output's buffer and the accumulator written with the pieces the run finds. -/
noncomputable def kernelRun1_B (hc0 : ¬cond1_0 i) (hc1 : cond1_1 i)
    (x0 : Vec F S2048x2048 .bf16) (x1 : Vec F S2048x256 .bf16) (x2 : Vec F S1x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.HandIdeal.R1Frame.lean ====
import proofs.«123138_j12206297055730_1_alg».proof.Proof.HandIdeal.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)
  (x0 : Vec F S2048x2048 .bf16) (x1 : Vec F S2048x256 .bf16) (x2 : Vec F S1x256 .f32) (xs0 : Vec F S2048x256 .f32)

/-- Each run's stores tile the buffer they go to, so they cover it. -/
theorem scover1_A (hc0 : cond1_0 i) (hc1 : ¬cond1_1 i) :
    ∀ y : S2048x256.Idx, ∃ pc ∈ (kernelRun1_A c i arg2 harg2 arg3 harg3 arg4 harg4 arg5 harg5 arg6 harg6 hc0 hc1 x0 x1 x2).2.1, y ∈ pc.1.set :=
  View.cover_of_tiledL _ S2048x256.size (by sl_kernel_rfl)
theorem cover1_B (hc0 : ¬cond1_0 i) (hc1 : cond1_1 i) :
    ∀ y : S2048x256.Idx, ∃ pc ∈ (kernelRun1_B c i arg2 harg2 arg3 harg3 arg4 harg4 arg5 harg5 arg6 harg6 hc0 hc1 x0 x1 x2 xs0).1, y ∈ pc.1.set :=
  View.cover_of_tiledL _ S2048x256.size (by sl_kernel_rfl)
theorem scover1_B (hc0 : ¬cond1_0 i) (hc1 : cond1_1 i) :
    ∀ y : S2048x256.Idx, ∃ pc ∈ (kernelRun1_B c i arg2 harg2 arg3 harg3 arg4 harg4 arg5 harg5 arg6 harg6 hc0 hc1 x0 x1 x2 xs0).2.1, y ∈ pc.1.set :=
  View.cover_of_tiledL _ S2048x256.size (by sl_kernel_rfl)

end Pieces

/-- The body's run at an even point, on that point's staging buffers and blocks. -/
abbrev runA1 (c : Dev nD) (t : Fin cfg1.N) (h0 : t.val % 2 = 0) :=
  kernelRun1_A (F := F) c (grid1.coords t) (ms1_0 t) (hs1_0 t) (ms1_1 t) (hs1_1 t) (ms1_2 t) (hs1_2 t) (ms1_3 t) (hs1_3 t) scM1_0 (Memref.isWhole_whole _)
    ((hcond1_0 t).mpr h0) (fun h => by have := (hcond1_1 t).mp h; omega) (iblk1 V c 0 t) (iblk1 V c 1 t) (iblk1 V c 2 t)
/-- The body's run at an odd point, the accumulator entered at `acc`. -/
abbrev runB1 (c : Dev nD) (t : Fin cfg1.N) (h0 : ¬t.val % 2 = 0) (acc : Vec F S2048x256 .f32) :=
  kernelRun1_B (F := F) c (grid1.coords t) (ms1_0 t) (hs1_0 t) (ms1_1 t) (hs1_1 t) (ms1_2 t) (hs1_2 t) (ms1_3 t) (hs1_3 t) scM1_0 (Memref.isWhole_whole _)
    (fun h => h0 ((hcond1_0 t).mp h)) ((hcond1_1 t).mpr (Nat.mod_two_ne_zero.mp h0)) (iblk1 V c 0 t) (iblk1 V c 1 t) (iblk1 V c 2 t) acc

/-- What the output's staging buffer (first) and the accumulator (second) hold after the body at position `n`: an odd
    position's run enters the accumulator at what the position before left. -/
def outsAt1 (c : Dev nD) : (n : ℕ) → n < cfg1.N → Vec F S2048x256 .f32 × Vec F S2048x256 .f32
  | 0, hn => (rd1 (runA1 V c ⟨0, hn⟩ rfl).1, rd1 (runA1 V c ⟨0, hn⟩ rfl).2.1)
  | n + 1, hn =>
    if h0 : (n + 1) % 2 = 0 then (rd1 (runA1 V c ⟨n + 1, hn⟩ h0).1, rd1 (runA1 V c ⟨n + 1, hn⟩ h0).2.1)
    else (rd1 (runB1 V c ⟨n + 1, hn⟩ h0 (outsAt1 c n (Nat.lt_of_succ_lt hn)).2).1,
      rd1 (runB1 V c ⟨n + 1, hn⟩ h0 (outsAt1 c n (Nat.lt_of_succ_lt hn)).2).2.1)

theorem outsAt1_A (c : Dev nD) (t : Fin cfg1.N) (h0 : t.val % 2 = 0) :
    outsAt1 V c t.val t.isLt = (rd1 (runA1 V c t h0).1, rd1 (runA1 V c t h0).2.1) := by
  obtain ⟨n, hn⟩ := t
  cases n with
  | zero => exact rfl
  | succ n => exact (dif_pos h0).trans rfl

/-- The accumulator as the position before `t` left it. -/
abbrev accBefore1 (c : Dev nD) (t : Fin cfg1.N) : Vec F S2048x256 .f32 :=
  (outsAt1 V c (t.val - 1) (Nat.lt_of_le_of_lt (Nat.sub_le _ _) t.isLt)).2

theorem outsAt1_B (c : Dev nD) (t : Fin cfg1.N) (h0 : ¬t.val % 2 = 0) :
    outsAt1 V c t.val t.isLt = (rd1 (runB1 V c t h0 (accBefore1 V c t)).1, rd1 (runB1 V c t h0 (accBefore1 V c t)).2.1) := by
  obtain ⟨n, hn⟩ := t
  cases n with
  | zero => exact absurd (Nat.zero_mod _) h0
  | succ n => exact (dif_neg h0).trans rfl

/-- The call's own state before position `n`: the accumulator at what the position before left, beside the rest. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

/-- Before any position the call's own state holds the accumulator at some contents. -/
theorem PhiS1_some (c : Dev nD) (n : ℕ) (h : n ≤ cfg1.N) :
    PhiS1 V c n h ⊢ iprop(iprop((∃ d, owns (c : Thread nD τ) scM1_0 fullShare d) ∗ others1 c) ∗ (∃ r, prngReg c r)) := by
  cases n with
  | zero => rw [show PhiS1 V c 0 h = Pipeline.ΦA spec1 c from rfl, PhiA1_eq]
  | succ n =>
    show iprop(iprop(owns (c : Thread nD τ) scM1_0 fullShare ((outsAt1 V c n h).2) ∗ others1 c) ∗ (∃ r, prngReg c r)) ⊢ _
    iintro ⟨⟨HS0, Hoth⟩, Hg⟩
    isplitr [Hg]; swap; · iexact Hg
    isplitr [Hoth]; swap; · iexact Hoth
    iexists _; iexact HS0

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-- The call's proof data on core `c`: after the body each input's buffer holds its block and the output's `outsAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := rfl
theorem after1_3 (c : Dev nD) (t : Fin cfg1.N) : (dat1 V c).after 3 t = (outsAt1 V c t.val t.isLt).1 := rfl

theorem before1_0 (c : Dev nD) (t : Fin cfg1.N) (d) : (dat1 V c).before 0 t d = iblk1 V c 0 t :=
  before1_0_of V (dat1 V c) rfl (fun _ => rfl) t d
theorem before1_1 (c : Dev nD) (t : Fin cfg1.N) (d) : (dat1 V c).before 1 t d = iblk1 V c 1 t :=
  before1_1_of V (dat1 V c) rfl (fun _ => rfl) t d
theorem before1_2 (c : Dev nD) (t : Fin cfg1.N) (d) : (dat1 V c).before 2 t d = iblk1 V c 2 t :=
  before1_2_of V (dat1 V c) rfl (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the point's parity says which case runs; the call's own state hands it the accumulator and takes
    it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = iprop(iprop(owns (c : Thread nD τ) scM1_0 fullShare ((outsAt1 V c t.val t.isLt).2) ∗ others1 c) ∗ (∃ r, prngReg c r)) from rfl]
  rw [show (dat1 V c).leavesExact 0 t = owns (c : Thread nD τ) (ms1_0 t) fullShare (iblk1 V c 0 t) from by
    unfold Dat.leavesExact; rw [liveAt1_0 t]; rfl]
  rw [show (dat1 V c).leavesExact 1 t = owns (c : Thread nD τ) (ms1_1 t) fullShare (iblk1 V c 1 t) from by
    unfold Dat.leavesExact; rw [liveAt1_1 t]; rfl]
  rw [show (dat1 V c).leavesExact 2 t = owns (c : Thread nD τ) (ms1_2 t) fullShare (iblk1 V c 2 t) from by
    unfold Dat.leavesExact; rw [liveAt1_2 t]; rfl]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3_A t hc0 hc1) (noFlush1_3_A t hc0 hc1)]
    rw [outsAt1_A V c t h0, show (dat1 V c).Φ t.castSucc = PhiS1 V c t.val (Nat.le_of_lt t.isLt) from rfl]
    dsimp only
    iintro ⟨HP, Ho, ⟨%d0, H0⟩, ⟨%d1, H1⟩, ⟨%d2, H2⟩, ⟨%d3, H3⟩⟩
    ihave HP' := (PhiS1_some V c _ _) $$ HP
    icases HP' with ⟨⟨HS0, Hoth⟩, Hg⟩
    iapply ((runA1 V c t h0).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover1_A _ _ _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · have hc0 : ¬cond1_0 (grid1.coords t) := fun h => h0 ((hcond1_0 t).mp h)
    have hc1 : cond1_1 (grid1.coords t) := (hcond1_1 t).mpr (by omega)
    have hz : t.val ≠ 0 := fun hz => h0 (by rw [hz])
    rw [show (dat1 V c).leavesExact 3 t = owns (c : Thread nD τ) (ms1_3 t) fullShare ((outsAt1 V c t.val t.isLt).1) from by
      unfold Dat.leavesExact; rw [liveAt1_3_B t hc0 hc1]; rfl]
    rw [outsAt1_B V c t h0]
    rw [show (dat1 V c).Φ t.castSucc = PhiS1 V c t.val (Nat.le_of_lt t.isLt) from rfl, PhiS1_pos V c _ _ hz]
    dsimp only
    iintro ⟨⟨⟨HS0, Hoth⟩, Hg⟩, Ho, ⟨%d0, H0⟩, ⟨%d1, H1⟩, ⟨%d2, H2⟩, ⟨%d3, H3⟩⟩
    iapply ((runB1 V c t h0 _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover1_B _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := by
  rw [PhiA1_eq]; exact PhiS1_some V c (Fin.last cfg1.N).val _

end Cert.KernelIdeal.Hand

end
-- ==== Proof.HandIdeal.R2Shared.lean ====
import proofs.«123138_j12206297055730_1_alg».proof.Proof.Gen.KernelIdeal.Launch
import proofs.«123138_j12206297055730_1_alg».proof.Proof.Gen.KernelIdeal.Skeleton
import proofs.«123138_j12206297055730_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the call is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The accumulator is reset exactly at the even points and the output block stored exactly at the odd ones. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem liveAt2_3_B : ∀ t : Fin cfg2.N, ¬cond2_0 (grid2.coords t) → cond2_1 (grid2.coords t) → cfg2.idle 3 (grid2.coords t) = false := by decide +kernel

abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)
abbrev scM2_0 : Memref sig .tc .vmem S2048x256 .f32 := Memref.whole cc2_scratch0
abbrev VS2_0 : View sig .tc .vmem S2048x256 .f32 := scM2_0.view

/-- What a buffer of the accumulator's shape reads once the pieces `L` are written over it, wherever they cover it. -/
abbrev rd2 (L : List (View.Piece (Elt F) S2048x256 .f32)) : Vec F S2048x256 .f32 :=
  VS2_0.read (Elt F) (VS2_0.writes (Elt F) VS2_0.junk L)

abbrev others2 (c : Dev nD) : sProp 𝕄 :=
  Pipeline.scopedRestBut (Ix := Unit) (Name := ℕ) (U := UR sig nD τ) (Lvl := ℕ) (Val := Elt F) spec2 c [cc2_scratch0]

/-- The call's own state at entry holds the accumulator at some contents, beside what the call never touches. -/
theorem PhiA2_eq (c : Dev nD) :
    (Pipeline.ΦA spec2 c : sProp 𝕄)
      = iprop(iprop((∃ d, owns (c : Thread nD τ) scM2_0 fullShare d) ∗ others2 c) ∗ (∃ r, prngReg c r)) := by
  unfold Pipeline.ΦA
  rw [show (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f)) ∗ others2 c)
      from Pipeline.scopedRest_split_of_list spec2 c [cc2_scratch0] (by decide) (by decide)]
  simp only [scM2_0, owns_whole]
  try rfl

end Cert.KernelIdeal.Hand

end
-- ==== Proof.HandIdeal.R2RunA.lean ====
import proofs.«123138_j12206297055730_1_alg».proof.Proof.HandIdeal.R2Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

set_option maxHeartbeats 1000000 in
/-- The body where the accumulator is reset: the inputs and the output's buffer come back as they were, the accumulator
    written with the pieces the run finds. -/
noncomputable def kernelRun2_A (hc0 : cond2_0 i) (hc1 : ¬cond2_1 i)
    (x0 : Vec F S2048x2048 .bf16) (x1 : Vec F S2048x256 .bf16) (x2 : Vec F S1x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.HandIdeal.R2RunB.lean ====
import proofs.«123138_j12206297055730_1_alg».proof.Proof.HandIdeal.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

set_option maxHeartbeats 1000000 in
/-- The body where the output block is stored: the accumulator is entered at `xs0`; the inputs come back as they were, the
    output's buffer and the accumulator written with the pieces the run finds. -/
noncomputable def kernelRun2_B (hc0 : ¬cond2_0 i) (hc1 : cond2_1 i)
    (x0 : Vec F S2048x2048 .bf16) (x1 : Vec F S2048x256 .bf16) (x2 : Vec F S1x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.HandIdeal.R2Frame.lean ====
import proofs.«123138_j12206297055730_1_alg».proof.Proof.HandIdeal.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)
  (x0 : Vec F S2048x2048 .bf16) (x1 : Vec F S2048x256 .bf16) (x2 : Vec F S1x256 .f32) (xs0 : Vec F S2048x256 .f32)

/-- Each run's stores tile the buffer they go to, so they cover it. -/
theorem scover2_A (hc0 : cond2_0 i) (hc1 : ¬cond2_1 i) :
    ∀ y : S2048x256.Idx, ∃ pc ∈ (kernelRun2_A c i arg2 harg2 arg3 harg3 arg4 harg4 arg5 harg5 arg6 harg6 hc0 hc1 x0 x1 x2).2.1, y ∈ pc.1.set :=
  View.cover_of_tiledL _ S2048x256.size (by sl_kernel_rfl)
theorem cover2_B (hc0 : ¬cond2_0 i) (hc1 : cond2_1 i) :
    ∀ y : S2048x256.Idx, ∃ pc ∈ (kernelRun2_B c i arg2 harg2 arg3 harg3 arg4 harg4 arg5 harg5 arg6 harg6 hc0 hc1 x0 x1 x2 xs0).1, y ∈ pc.1.set :=
  View.cover_of_tiledL _ S2048x256.size (by sl_kernel_rfl)
theorem scover2_B (hc0 : ¬cond2_0 i) (hc1 : cond2_1 i) :
    ∀ y : S2048x256.Idx, ∃ pc ∈ (kernelRun2_B c i arg2 harg2 arg3 harg3 arg4 harg4 arg5 harg5 arg6 harg6 hc0 hc1 x0 x1 x2 xs0).2.1, y ∈ pc.1.set :=
  View.cover_of_tiledL _ S2048x256.size (by sl_kernel_rfl)

end Pieces

/-- The body's run at an even point, on that point's staging buffers and blocks. -/
abbrev runA2 (c : Dev nD) (t : Fin cfg2.N) (h0 : t.val % 2 = 0) :=
  kernelRun2_A (F := F) c (grid2.coords t) (ms2_0 t) (hs2_0 t) (ms2_1 t) (hs2_1 t) (ms2_2 t) (hs2_2 t) (ms2_3 t) (hs2_3 t) scM2_0 (Memref.isWhole_whole _)
    ((hcond2_0 t).mpr h0) (fun h => by have := (hcond2_1 t).mp h; omega) (iblk2 V c 0 t) (iblk2 V c 1 t) (iblk2 V c 2 t)
/-- The body's run at an odd point, the accumulator entered at `acc`. -/
abbrev runB2 (c : Dev nD) (t : Fin cfg2.N) (h0 : ¬t.val % 2 = 0) (acc : Vec F S2048x256 .f32) :=
  kernelRun2_B (F := F) c (grid2.coords t) (ms2_0 t) (hs2_0 t) (ms2_1 t) (hs2_1 t) (ms2_2 t) (hs2_2 t) (ms2_3 t) (hs2_3 t) scM2_0 (Memref.isWhole_whole _)
    (fun h => h0 ((hcond2_0 t).mp h)) ((hcond2_1 t).mpr (Nat.mod_two_ne_zero.mp h0)) (iblk2 V c 0 t) (iblk2 V c 1 t) (iblk2 V c 2 t) acc

/-- What the output's staging buffer (first) and the accumulator (second) hold after the body at position `n`: an odd
    position's run enters the accumulator at what the position before left. -/
def outsAt2 (c : Dev nD) : (n : ℕ) → n < cfg2.N → Vec F S2048x256 .f32 × Vec F S2048x256 .f32
  | 0, hn => (rd2 (runA2 V c ⟨0, hn⟩ rfl).1, rd2 (runA2 V c ⟨0, hn⟩ rfl).2.1)
  | n + 1, hn =>
    if h0 : (n + 1) % 2 = 0 then (rd2 (runA2 V c ⟨n + 1, hn⟩ h0).1, rd2 (runA2 V c ⟨n + 1, hn⟩ h0).2.1)
    else (rd2 (runB2 V c ⟨n + 1, hn⟩ h0 (outsAt2 c n (Nat.lt_of_succ_lt hn)).2).1,
      rd2 (runB2 V c ⟨n + 1, hn⟩ h0 (outsAt2 c n (Nat.lt_of_succ_lt hn)).2).2.1)

theorem outsAt2_A (c : Dev nD) (t : Fin cfg2.N) (h0 : t.val % 2 = 0) :
    outsAt2 V c t.val t.isLt = (rd2 (runA2 V c t h0).1, rd2 (runA2 V c t h0).2.1) := by
  obtain ⟨n, hn⟩ := t
  cases n with
  | zero => exact rfl
  | succ n => exact (dif_pos h0).trans rfl

/-- The accumulator as the position before `t` left it. -/
abbrev accBefore2 (c : Dev nD) (t : Fin cfg2.N) : Vec F S2048x256 .f32 :=
  (outsAt2 V c (t.val - 1) (Nat.lt_of_le_of_lt (Nat.sub_le _ _) t.isLt)).2

theorem outsAt2_B (c : Dev nD) (t : Fin cfg2.N) (h0 : ¬t.val % 2 = 0) :
    outsAt2 V c t.val t.isLt = (rd2 (runB2 V c t h0 (accBefore2 V c t)).1, rd2 (runB2 V c t h0 (accBefore2 V c t)).2.1) := by
  obtain ⟨n, hn⟩ := t
  cases n with
  | zero => exact absurd (Nat.zero_mod _) h0
  | succ n => exact (dif_neg h0).trans rfl

/-- The call's own state before position `n`: the accumulator at what the position before left, beside the rest. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 c) ∗ (∃ r, prngReg c r))

/-- Before any position the call's own state holds the accumulator at some contents. -/
theorem PhiS2_some (c : Dev nD) (n : ℕ) (h : n ≤ cfg2.N) :
    PhiS2 V c n h ⊢ iprop(iprop((∃ d, owns (c : Thread nD τ) scM2_0 fullShare d) ∗ others2 c) ∗ (∃ r, prngReg c r)) := by
  cases n with
  | zero => rw [show PhiS2 V c 0 h = Pipeline.ΦA spec2 c from rfl, PhiA2_eq]
  | succ n =>
    show iprop(iprop(owns (c : Thread nD τ) scM2_0 fullShare ((outsAt2 V c n h).2) ∗ others2 c) ∗ (∃ r, prngReg c r)) ⊢ _
    iintro ⟨⟨HS0, Hoth⟩, Hg⟩
    isplitr [Hg]; swap; · iexact Hg
    isplitr [Hoth]; swap; · iexact Hoth
    iexists _; iexact HS0

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 c) ∗ (∃ r, prngReg c r)) := by
  cases n with
  | zero => exact absurd rfl hz
  | succ n => rfl

/-- The call's proof data on core `c`: after the body each input's buffer holds its block and the output's `outsAt2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl
theorem after2_3 (c : Dev nD) (t : Fin cfg2.N) : (dat2 V c).after 3 t = (outsAt2 V c t.val t.isLt).1 := rfl

theorem before2_0 (c : Dev nD) (t : Fin cfg2.N) (d) : (dat2 V c).before 0 t d = iblk2 V c 0 t :=
  before2_0_of V (dat2 V c) rfl (fun _ => rfl) t d
theorem before2_1 (c : Dev nD) (t : Fin cfg2.N) (d) : (dat2 V c).before 1 t d = iblk2 V c 1 t :=
  before2_1_of V (dat2 V c) rfl (fun _ => rfl) t d
theorem before2_2 (c : Dev nD) (t : Fin cfg2.N) (d) : (dat2 V c).before 2 t d = iblk2 V c 2 t :=
  before2_2_of V (dat2 V c) rfl (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the point's parity says which case runs; the call's own state hands it the accumulator and takes
    it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = iprop(iprop(owns (c : Thread nD τ) scM2_0 fullShare ((outsAt2 V c t.val t.isLt).2) ∗ others2 c) ∗ (∃ r, prngReg c r)) from rfl]
  rw [show (dat2 V c).leavesExact 0 t = owns (c : Thread nD τ) (ms2_0 t) fullShare (iblk2 V c 0 t) from by
    unfold Dat.leavesExact; rw [liveAt2_0 t]; rfl]
  rw [show (dat2 V c).leavesExact 1 t = owns (c : Thread nD τ) (ms2_1 t) fullShare (iblk2 V c 1 t) from by
    unfold Dat.leavesExact; rw [liveAt2_1 t]; rfl]
  rw [show (dat2 V c).leavesExact 2 t = owns (c : Thread nD τ) (ms2_2 t) fullShare (iblk2 V c 2 t) from by
    unfold Dat.leavesExact; rw [liveAt2_2 t]; rfl]
  by_cases h0 : t.val % 2 = 0
  · have hc0 : cond2_0 (grid2.coords t) := (hcond2_0 t).mpr h0
    have hc1 : ¬cond2_1 (grid2.coords t) := fun h => by have := (hcond2_1 t).mp h; omega
    rw [Dat.leavesExact_idle (dat2 V c) 3 t (idleAt2_3_A t hc0 hc1) (noFlush2_3_A t hc0 hc1)]
    rw [outsAt2_A V c t h0, show (dat2 V c).Φ t.castSucc = PhiS2 V c t.val (Nat.le_of_lt t.isLt) from rfl]
    dsimp only
    iintro ⟨HP, Ho, ⟨%d0, H0⟩, ⟨%d1, H1⟩, ⟨%d2, H2⟩, ⟨%d3, H3⟩⟩
    ihave HP' := (PhiS2_some V c _ _) $$ HP
    icases HP' with ⟨⟨HS0, Hoth⟩, Hg⟩
    iapply ((runA2 V c t h0).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover2_A _ _ _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · have hc0 : ¬cond2_0 (grid2.coords t) := fun h => h0 ((hcond2_0 t).mp h)
    have hc1 : cond2_1 (grid2.coords t) := (hcond2_1 t).mpr (by omega)
    have hz : t.val ≠ 0 := fun hz => h0 (by rw [hz])
    rw [show (dat2 V c).leavesExact 3 t = owns (c : Thread nD τ) (ms2_3 t) fullShare ((outsAt2 V c t.val t.isLt).1) from by
      unfold Dat.leavesExact; rw [liveAt2_3_B t hc0 hc1]; rfl]
    rw [outsAt2_B V c t h0]
    rw [show (dat2 V c).Φ t.castSucc = PhiS2 V c t.val (Nat.le_of_lt t.isLt) from rfl, PhiS2_pos V c _ _ hz]
    dsimp only
    iintro ⟨⟨⟨HS0, Hoth⟩, Hg⟩, Ho, ⟨%d0, H0⟩, ⟨%d1, H1⟩, ⟨%d2, H2⟩, ⟨%d3, H3⟩⟩
    iapply ((runB2 V c t h0 _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover2_B _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := by
  rw [PhiA2_eq]; exact PhiS2_some V c (Fin.last cfg2.N).val _

end Cert.KernelIdeal.Hand

end
-- ==== Proof.HandIdeal.R3Shared.lean ====
import proofs.«123138_j12206297055730_1_alg».proof.Proof.Gen.KernelIdeal.Launch
import proofs.«123138_j12206297055730_1_alg».proof.Proof.Gen.KernelIdeal.Skeleton
import proofs.«123138_j12206297055730_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the call is entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The accumulator is reset exactly at the even points and the output block stored exactly at the odd ones. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 2 = 0 :=
  (by decide +kernel : ∀ t : Fin grid3.N, cond3_0 (grid3.coords t) ↔ t.val % 2 = 0)
abbrev cond3_1 (i : grid3.Coords) : Prop := k3_cond2 i = 1#1
theorem hcond3_1 : ∀ t : Fin cfg3.N, cond3_1 (grid3.coords t) ↔ t.val % 2 = 1 :=
  (by decide +kernel : ∀ t : Fin grid3.N, cond3_1 (grid3.coords t) ↔ t.val % 2 = 1)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem liveAt3_3_B : ∀ t : Fin cfg3.N, ¬cond3_0 (grid3.coords t) → cond3_1 (grid3.coords t) → cfg3.idle 3 (grid3.coords t) = false := by decide +kernel

abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x256 .f32 := win3_3.stage (cfg3.slots t 3)
abbrev hs3_3 (t : Fin cfg3.N) : (ms3_3 t).IsWhole := hstage3_3 ((cfg3.slots t 3).cast nbuf3_3)
abbrev scM3_0 : Memref sig .tc .vmem S2048x256 .f32 := Memref.whole cc3_scratch0
abbrev VS3_0 : View sig .tc .vmem S2048x256 .f32 := scM3_0.view

/-- What a buffer of the accumulator's shape reads once the pieces `L` are written over it, wherever they cover it. -/
abbrev rd3 (L : List (View.Piece (Elt F) S2048x256 .f32)) : Vec F S2048x256 .f32 :=
  VS3_0.read (Elt F) (VS3_0.writes (Elt F) VS3_0.junk L)

abbrev others3 (c : Dev nD) : sProp 𝕄 :=
  Pipeline.scopedRestBut (Ix := Unit) (Name := ℕ) (U := UR sig nD τ) (Lvl := ℕ) (Val := Elt F) spec3 c [cc3_scratch0]

/-- The call's own state at entry holds the accumulator at some contents, beside what the call never touches. -/
theorem PhiA3_eq (c : Dev nD) :
    (Pipeline.ΦA spec3 c : sProp 𝕄)
      = iprop(iprop((∃ d, owns (c : Thread nD τ) scM3_0 fullShare d) ∗ others3 c) ∗ (∃ r, prngReg c r)) := by
  unfold Pipeline.ΦA
  rw [show (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f)) ∗ others3 c)
      from Pipeline.scopedRest_split_of_list spec3 c [cc3_scratch0] (by decide) (by decide)]
  simp only [scM3_0, owns_whole]
  try rfl

end Cert.KernelIdeal.Hand

end
-- ==== Proof.HandIdeal.R3RunA.lean ====
import proofs.«123138_j12206297055730_1_alg».proof.Proof.HandIdeal.R3Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

set_option maxHeartbeats 1000000 in
/-- The body where the accumulator is reset: the inputs and the output's buffer come back as they were, the accumulator
    written with the pieces the run finds. -/
noncomputable def kernelRun3_A (hc0 : cond3_0 i) (hc1 : ¬cond3_1 i)
    (x0 : Vec F S2048x2048 .bf16) (x1 : Vec F S2048x256 .bf16) (x2 : Vec F S1x256 .f32) :
    Σ' (L3 : List (View.Piece (Elt F) S2048x256 .f32)), { LS0 : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.HandIdeal.R3RunB.lean ====
import proofs.«123138_j12206297055730_1_alg».proof.Proof.HandIdeal.R3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)

set_option maxHeartbeats 1000000 in
/-- The body where the output block is stored: the accumulator is entered at `xs0`; the inputs come back as they were, the
    output's buffer and the accumulator written with the pieces the run finds. -/
noncomputable def kernelRun3_B (hc0 : ¬cond3_0 i) (hc1 : cond3_1 i)
    (x0 : Vec F S2048x2048 .bf16) (x1 : Vec F S2048x256 .bf16) (x2 : Vec F S1x256 .f32) (xs0 : Vec F S2048x256 .f32) :
    Σ' (L3 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.HandIdeal.R3Frame.lean ====
import proofs.«123138_j12206297055730_1_alg».proof.Proof.HandIdeal.R3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)
  (x0 : Vec F S2048x2048 .bf16) (x1 : Vec F S2048x256 .bf16) (x2 : Vec F S1x256 .f32) (xs0 : Vec F S2048x256 .f32)

/-- Each run's stores tile the buffer they go to, so they cover it. -/
theorem scover3_A (hc0 : cond3_0 i) (hc1 : ¬cond3_1 i) :
    ∀ y : S2048x256.Idx, ∃ pc ∈ (kernelRun3_A c i arg2 harg2 arg3 harg3 arg4 harg4 arg5 harg5 arg6 harg6 hc0 hc1 x0 x1 x2).2.1, y ∈ pc.1.set :=
  View.cover_of_tiledL _ S2048x256.size (by sl_kernel_rfl)
theorem cover3_B (hc0 : ¬cond3_0 i) (hc1 : cond3_1 i) :
    ∀ y : S2048x256.Idx, ∃ pc ∈ (kernelRun3_B c i arg2 harg2 arg3 harg3 arg4 harg4 arg5 harg5 arg6 harg6 hc0 hc1 x0 x1 x2 xs0).1, y ∈ pc.1.set :=
  View.cover_of_tiledL _ S2048x256.size (by sl_kernel_rfl)
theorem scover3_B (hc0 : ¬cond3_0 i) (hc1 : cond3_1 i) :
    ∀ y : S2048x256.Idx, ∃ pc ∈ (kernelRun3_B c i arg2 harg2 arg3 harg3 arg4 harg4 arg5 harg5 arg6 harg6 hc0 hc1 x0 x1 x2 xs0).2.1, y ∈ pc.1.set :=
  View.cover_of_tiledL _ S2048x256.size (by sl_kernel_rfl)

end Pieces

/-- The body's run at an even point, on that point's staging buffers and blocks. -/
abbrev runA3 (c : Dev nD) (t : Fin cfg3.N) (h0 : t.val % 2 = 0) :=
  kernelRun3_A (F := F) c (grid3.coords t) (ms3_0 t) (hs3_0 t) (ms3_1 t) (hs3_1 t) (ms3_2 t) (hs3_2 t) (ms3_3 t) (hs3_3 t) scM3_0 (Memref.isWhole_whole _)
    ((hcond3_0 t).mpr h0) (fun h => by have := (hcond3_1 t).mp h; omega) (iblk3 V c 0 t) (iblk3 V c 1 t) (iblk3 V c 2 t)
/-- The body's run at an odd point, the accumulator entered at `acc`. -/
abbrev runB3 (c : Dev nD) (t : Fin cfg3.N) (h0 : ¬t.val % 2 = 0) (acc : Vec F S2048x256 .f32) :=
  kernelRun3_B (F := F) c (grid3.coords t) (ms3_0 t) (hs3_0 t) (ms3_1 t) (hs3_1 t) (ms3_2 t) (hs3_2 t) (ms3_3 t) (hs3_3 t) scM3_0 (Memref.isWhole_whole _)
    (fun h => h0 ((hcond3_0 t).mp h)) ((hcond3_1 t).mpr (Nat.mod_two_ne_zero.mp h0)) (iblk3 V c 0 t) (iblk3 V c 1 t) (iblk3 V c 2 t) acc

/-- What the output's staging buffer (first) and the accumulator (second) hold after the body at position `n`: an odd
    position's run enters the accumulator at what the position before left. -/
def outsAt3 (c : Dev nD) : (n : ℕ) → n < cfg3.N → Vec F S2048x256 .f32 × Vec F S2048x256 .f32
  | 0, hn => (rd3 (runA3 V c ⟨0, hn⟩ rfl).1, rd3 (runA3 V c ⟨0, hn⟩ rfl).2.1)
  | n + 1, hn =>
    if h0 : (n + 1) % 2 = 0 then (rd3 (runA3 V c ⟨n + 1, hn⟩ h0).1, rd3 (runA3 V c ⟨n + 1, hn⟩ h0).2.1)
    else (rd3 (runB3 V c ⟨n + 1, hn⟩ h0 (outsAt3 c n (Nat.lt_of_succ_lt hn)).2).1,
      rd3 (runB3 V c ⟨n + 1, hn⟩ h0 (outsAt3 c n (Nat.lt_of_succ_lt hn)).2).2.1)

theorem outsAt3_A (c : Dev nD) (t : Fin cfg3.N) (h0 : t.val % 2 = 0) :
    outsAt3 V c t.val t.isLt = (rd3 (runA3 V c t h0).1, rd3 (runA3 V c t h0).2.1) := by
  obtain ⟨n, hn⟩ := t
  cases n with
  | zero => exact rfl
  | succ n => exact (dif_pos h0).trans rfl

/-- The accumulator as the position before `t` left it. -/
abbrev accBefore3 (c : Dev nD) (t : Fin cfg3.N) : Vec F S2048x256 .f32 :=
  (outsAt3 V c (t.val - 1) (Nat.lt_of_le_of_lt (Nat.sub_le _ _) t.isLt)).2

theorem outsAt3_B (c : Dev nD) (t : Fin cfg3.N) (h0 : ¬t.val % 2 = 0) :
    outsAt3 V c t.val t.isLt = (rd3 (runB3 V c t h0 (accBefore3 V c t)).1, rd3 (runB3 V c t h0 (accBefore3 V c t)).2.1) := by
  obtain ⟨n, hn⟩ := t
  cases n with
  | zero => exact absurd (Nat.zero_mod _) h0
  | succ n => exact (dif_neg h0).trans rfl

/-- The call's own state before position `n`: the accumulator at what the position before left, beside the rest. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ others3 c) ∗ (∃ r, prngReg c r))

/-- Before any position the call's own state holds the accumulator at some contents. -/
theorem PhiS3_some (c : Dev nD) (n : ℕ) (h : n ≤ cfg3.N) :
    PhiS3 V c n h ⊢ iprop(iprop((∃ d, owns (c : Thread nD τ) scM3_0 fullShare d) ∗ others3 c) ∗ (∃ r, prngReg c r)) := by
  cases n with
  | zero => rw [show PhiS3 V c 0 h = Pipeline.ΦA spec3 c from rfl, PhiA3_eq]
  | succ n =>
    show iprop(iprop(owns (c : Thread nD τ) scM3_0 fullShare ((outsAt3 V c n h).2) ∗ others3 c) ∗ (∃ r, prngReg c r)) ⊢ _
    iintro ⟨⟨HS0, Hoth⟩, Hg⟩
    isplitr [Hg]; swap; · iexact Hg
    isplitr [Hoth]; swap; · iexact Hoth
    iexists _; iexact HS0

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ others3 c) ∗ (∃ r, prngReg c r)) := by
  cases n with
  | zero => exact absurd rfl hz
  | succ n => rfl

/-- The call's proof data on core `c`: after the body each input's buffer holds its block and the output's `outsAt3`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := rfl
theorem after3_3 (c : Dev nD) (t : Fin cfg3.N) : (dat3 V c).after 3 t = (outsAt3 V c t.val t.isLt).1 := rfl

theorem before3_0 (c : Dev nD) (t : Fin cfg3.N) (d) : (dat3 V c).before 0 t d = iblk3 V c 0 t :=
  before3_0_of V (dat3 V c) rfl (fun _ => rfl) t d
theorem before3_1 (c : Dev nD) (t : Fin cfg3.N) (d) : (dat3 V c).before 1 t d = iblk3 V c 1 t :=
  before3_1_of V (dat3 V c) rfl (fun _ => rfl) t d
theorem before3_2 (c : Dev nD) (t : Fin cfg3.N) (d) : (dat3 V c).before 2 t d = iblk3 V c 2 t :=
  before3_2_of V (dat3 V c) rfl (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the point's parity says which case runs; the call's own state hands it the accumulator and takes
    it back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = iprop(iprop(owns (c : Thread nD τ) scM3_0 fullShare ((outsAt3 V c t.val t.isLt).2) ∗ others3 c) ∗ (∃ r, prngReg c r)) from rfl]
  rw [show (dat3 V c).leavesExact 0 t = owns (c : Thread nD τ) (ms3_0 t) fullShare (iblk3 V c 0 t) from by
    unfold Dat.leavesExact; rw [liveAt3_0 t]; rfl]
  rw [show (dat3 V c).leavesExact 1 t = owns (c : Thread nD τ) (ms3_1 t) fullShare (iblk3 V c 1 t) from by
    unfold Dat.leavesExact; rw [liveAt3_1 t]; rfl]
  rw [show (dat3 V c).leavesExact 2 t = owns (c : Thread nD τ) (ms3_2 t) fullShare (iblk3 V c 2 t) from by
    unfold Dat.leavesExact; rw [liveAt3_2 t]; rfl]
  by_cases h0 : t.val % 2 = 0
  · have hc0 : cond3_0 (grid3.coords t) := (hcond3_0 t).mpr h0
    have hc1 : ¬cond3_1 (grid3.coords t) := fun h => by have := (hcond3_1 t).mp h; omega
    rw [Dat.leavesExact_idle (dat3 V c) 3 t (idleAt3_3_A t hc0 hc1) (noFlush3_3_A t hc0 hc1)]
    rw [outsAt3_A V c t h0, show (dat3 V c).Φ t.castSucc = PhiS3 V c t.val (Nat.le_of_lt t.isLt) from rfl]
    dsimp only
    iintro ⟨HP, Ho, ⟨%d0, H0⟩, ⟨%d1, H1⟩, ⟨%d2, H2⟩, ⟨%d3, H3⟩⟩
    ihave HP' := (PhiS3_some V c _ _) $$ HP
    icases HP' with ⟨⟨HS0, Hoth⟩, Hg⟩
    iapply ((runA3 V c t h0).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover3_A _ _ _ _ _ _ _ _ _ _ _ _ _ _ _ _ _)
        iexact Hoth
      iexact Hg
    isplitl [Ho]; · iexact Ho
    isplitl [H0]; · iexact H0
    isplitl [H1]; · iexact H1
    isplitl [H2]; · iexact H2
    iexists _; iexact H3
  · have hc0 : ¬cond3_0 (grid3.coords t) := fun h => h0 ((hcond3_0 t).mp h)
    have hc1 : cond3_1 (grid3.coords t) := (hcond3_1 t).mpr (by omega)
    have hz : t.val ≠ 0 := fun hz => h0 (by rw [hz])
    rw [show (dat3 V c).leavesExact 3 t = owns (c : Thread nD τ) (ms3_3 t) fullShare ((outsAt3 V c t.val t.isLt).1) from by
      unfold Dat.leavesExact; rw [liveAt3_3_B t hc0 hc1]; rfl]
    rw [outsAt3_B V c t h0]
    rw [show (dat3 V c).Φ t.castSucc = PhiS3 V c t.val (Nat.le_of_lt t.isLt) from rfl, PhiS3_pos V c _ _ hz]
    dsimp only
    iintro ⟨⟨⟨HS0, Hoth⟩, Hg⟩, Ho, ⟨%d0, H0⟩, ⟨%d1, H1⟩, ⟨%d2, H2⟩, ⟨%d3, H3⟩⟩
    iapply ((runB3 V c t h0 _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover3_B _ _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B _ _ _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl

theorem hout3 (c : Dev nD) : (dat3 V c).Φ (Fin.last cfg3.N) ⊢ Pipeline.ΦA spec3 c := by
  rw [PhiA3_eq]; exact PhiS3_some V c (Fin.last cfg3.N).val _

end Cert.KernelIdeal.Hand

end
-- ==== Proof.HandIdeal.Assemble.lean ====
import proofs.«123138_j12206297055730_1_alg».proof.Proof.HandIdeal.R0Frame
import proofs.«123138_j12206297055730_1_alg».proof.Proof.HandIdeal.R1Frame
import proofs.«123138_j12206297055730_1_alg».proof.Proof.HandIdeal.R2Frame
import proofs.«123138_j12206297055730_1_alg».proof.Proof.HandIdeal.R3Frame
import proofs.«123138_j12206297055730_1_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb

abbrev W3 : Dev nD → Valuation τ sig (Elt F) := fun c => StableHlo.after hostOps1 (W2 m c)
abbrev U3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N :=
  Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) :=
  Pipeline.withArrays_of_ne spec1 c _ _ b hb

abbrev W5 : Dev nD → Valuation τ sig (Elt F) := fun c => StableHlo.after hostOps2 (W4 m c)
abbrev U5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N :=
  Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) :=
  Pipeline.withArrays_of_ne spec2 c _ _ b hb

abbrev W7 : Dev nD → Valuation τ sig (Elt F) := fun c => StableHlo.after hostOps3 (W6 m c)
abbrev U7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N :=
  Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) :=
  Pipeline.withArrays_of_ne spec3 c _ _ b hb

abbrev W9 : Dev nD → Valuation τ sig (Elt F) := fun c => StableHlo.after hostOps4 (W8 m c)

theorem W9_kept (c : Dev nD) (b : Ref sig .tc) (h0 : b ∉ hostOps0_W) (h1 : b ∉ hostOps1_W) (h2 : b ∉ hostOps2_W) (h3 : b ∉ hostOps3_W) (h4 : b ∉ hostOps4_W)
    (g0 : ∀ w, Pipeline.arrRef spec0 w ≠ b) (g1 : ∀ w, Pipeline.arrRef spec1 w ≠ b) (g2 : ∀ w, Pipeline.arrRef spec2 w ≠ b) (g3 : ∀ w, Pipeline.arrRef spec3 w ≠ b) :
    W9 m c (Proc.devRef .tc b) = m ((c : Thread nD τ).loc b) :=
  (StableHlo.after_of_writes_sub hostOps4 _ hostOps4_writes h4).trans <| (W8_of_ne m c b g3).trans <|
  (StableHlo.after_of_writes_sub hostOps3 _ hostOps3_writes h3).trans <| (W6_of_ne m c b g2).trans <|
  (StableHlo.after_of_writes_sub hostOps2 _ hostOps2_writes h2).trans <| (W4_of_ne m c b g1).trans <|
  (StableHlo.after_of_writes_sub hostOps1 _ hostOps1_writes h1).trans <| (W2_of_ne m c b g0).trans <|
  StableHlo.after_of_writes_sub hostOps0 _ hostOps0_writes h0

def pdats : (p : Fin 4) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
  | ⟨3, _⟩ => fun c => dat3 (U7 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W9 m c) ∗ ∃ r, prngReg c r)

/-- One call: the buffers are held at `V` before it and at `V'` after it, `V'` being `V` with the call's arrays at their last contents. -/
def reg {p : Fin 4} (lf : Pipeline.LaunchFacts (nD := nD) (τ := τ) cfgs p) (V V' : Dev nD → Valuation τ sig (Elt F))
    (hq : ∀ c w, (pdats m p c).q w = fullShare) (howed : ∀ c t, (pdats m p c).owed t = 0) (hrec : ∀ c, (pdats m p c).recorded 0 = Set.univ)
    (hA : ∀ c w, (pdats m p c).A w = V c (Pipeline.arrRef (cfgs p).spec w))
    (hbody : ∀ c, BodyObligation (pdats m p c) (defs₀ (F := F)) Variants.none () Set.univ)
    (hin : ∀ c, Pipeline.ΦA (cfgs p).spec c ⊢ (pdats m p c).Φ 0)
    (hout : ∀ c, (pdats m p c).Φ (Fin.last _) ⊢ Pipeline.ΦA (cfgs p).spec c)
    (harr : ∀ c w, V' c (Proc.devRef .tc (Pipeline.arrRef (cfgs p).spec w)) = (pdats m p c).arrAt w (cfgs p).N)
    (hne : ∀ c (b : Ref sig .tc), (∀ w, Pipeline.arrRef (cfgs p).spec w ≠ b) → V' c (Proc.devRef .tc b) = V c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m) lf.win lf.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    have h := hin c
    unfold Pipeline.ΦA at h
    iintro ⟨Hp, -, Hr⟩
    iapply h
    isplitl [Hr]; · iexact Hr
    iexact Hp
  hout c := by
    rw [Pipeline.ownSems0_none]
    have h := hout c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => V c b) (fun b => V' c b) ((pdats m p c).arrAt · (cfgs p).N) (fun w => (harr c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : Pipeline.RegionSeg (pcfgs (F := F)) adm (pdats m) () defs₀ 𝒱₀ L lv 0 :=
  reg m launch0 (W1 m) (W2 m) (fun _ _ => rfl) (fun _ _ => rfl) (fun _ => rfl) (fun _ _ => rfl) (body_obligation0 (U1 m)) (hin0 (U1 m)) (hout0 (U1 m)) (W2_arr m) (W2_of_ne m)
def reg1 : Pipeline.RegionSeg (pcfgs (F := F)) adm (pdats m) () defs₀ 𝒱₀ L lv 1 :=
  reg m launch1 (W3 m) (W4 m) (fun _ _ => rfl) (fun _ _ => rfl) (fun _ => rfl) (fun _ _ => rfl) (body_obligation1 (U3 m)) (hin1 (U3 m)) (hout1 (U3 m)) (W4_arr m) (W4_of_ne m)
def reg2 : Pipeline.RegionSeg (pcfgs (F := F)) adm (pdats m) () defs₀ 𝒱₀ L lv 2 :=
  reg m launch2 (W5 m) (W6 m) (fun _ _ => rfl) (fun _ _ => rfl) (fun _ => rfl) (fun _ _ => rfl) (body_obligation2 (U5 m)) (hin2 (U5 m)) (hout2 (U5 m)) (W6_arr m) (W6_of_ne m)
def reg3 : Pipeline.RegionSeg (pcfgs (F := F)) adm (pdats m) () defs₀ 𝒱₀ L lv 3 :=
  reg m launch3 (W7 m) (W8 m) (fun _ _ => rfl) (fun _ _ => rfl) (fun _ => rfl) (fun _ _ => rfl) (body_obligation3 (U7 m)) (hin3 (U7 m)) (hout3 (U7 m)) (W8_arr m) (W8_of_ne m)

abbrev mainSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]

theorem main_run (c : Dev nD) : main (F := F) c = Pipeline.Seg.run (mainSegs m) := (main_chain c).trans (by chain_rfl)

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m c) ∗ R c) : sProp 𝕄) ⊢ _
        iintro ⟨Hh, Hp, Ho⟩
        isplitr [Ho]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A reference written by no host stretch and by no call holds at the end what it held at launch. -/
theorem kept_of_run {μ : (ℓ : Loc nD τ sig) → Buf (Elt F) ℓ} {c : Dev nD}
    (h : ∀ b ∈ Pipeline.ucRefs τ sig, μ (((c : Thread nD τ)).1, b) = W9 m c b) (b : Ref sig .tc)
    (hb : ¬ (Proc.devRef .tc b : DevRef τ sig).isScoped ∧ b ∉ hostOps0_W ∧ b ∉ hostOps1_W ∧ b ∉ hostOps2_W ∧ b ∉ hostOps3_W ∧ b ∉ hostOps4_W
      ∧ (∀ w, Pipeline.arrRef spec0 w ≠ b) ∧ (∀ w, Pipeline.arrRef spec1 w ≠ b) ∧ (∀ w, Pipeline.arrRef spec2 w ≠ b) ∧ ∀ w, Pipeline.arrRef spec3 w ≠ b) :
    μ ((c : Thread nD τ).loc b) = m ((c : Thread nD τ).loc b) := by
  obtain ⟨hu, h0, h1, h2, h3, h4, g0, g1, g2, g3⟩ := hb
  exact (h _ (mem_uc b hu)).trans (W9_kept m c b h0 h1 h2 h3 h4 g0 g1 g2 g3)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨kept_of_run m (h c) main_arg0 (by decide), kept_of_run m (h c) main_arg1 (by decide),
    kept_of_run m (h c) main_arg2 (by decide), kept_of_run m (h c) main_arg3 (by decide), kept_of_run m (h c) main_arg4 (by decide),
    kept_of_run m (h c) main_arg5 (by decide), kept_of_run m (h c) main_arg6 (by decide), kept_of_run m (h c) main_arg7 (by decide),
    kept_of_run m (h c) main_arg8 (by decide)⟩) (run_all m ρ)

end Cert.KernelIdeal.Hand

end
-- ==== Proof.Spec.lean ====
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

abbrev Mat (n m : ℕ) := Fin n → Fin m → EReal

abbrev zeroW : EReal := Ideal.ofBits .f32 0x00000000#32
abbrev n4096W : EReal := Ideal.ofBits .f32 0x45800000#32

/-- The matrix product over the extended reals. -/
def mm {n k m : ℕ} (a : Mat n k) (b : Mat k m) : Mat n m := fun i j => ∑ l : Fin k, a i l * b l j

/-- A layer before its activation, grouped `(f · x) · w + b`; below, grouped `f · (x · w) + b`. -/
def layerR {n d : ℕ} (f : Mat n n) (x : Mat n d) (w : Mat d d) (b : Fin d → EReal) : Mat n d :=
  fun i j => mm (mm f x) w i j + b j

def layerK {n d : ℕ} (f : Mat n n) (x : Mat n d) (w : Mat d d) (b : Fin d → EReal) : Mat n d :=
  fun i j => mm f (mm x w) i j + b j

/-- What one call computes from the fused matrix, the projected features and the bias row. -/
def conv {n d : ℕ} (f : Mat n n) (z : Mat n d) (b : Fin d → EReal) : Mat n d := fun i j => mm f z i j + b j

/-- The entrywise maximum with the word 0. -/
def relu {n d : ℕ} (x : Mat n d) : Mat n d := fun i j => max (x i j) zeroW

def netR {n d : ℕ} (f : Mat n n) (y : Mat n d) (w0 : Mat d d) (b0 : Fin d → EReal) (w1 : Mat d d) (b1 : Fin d → EReal)
    (w2 : Mat d d) (b2 : Fin d → EReal) : Mat n d :=
  layerR f (relu (layerR f (relu (layerR f y w0 b0)) w1 b1)) w2 b2

def netK {n d : ℕ} (f : Mat n n) (y : Mat n d) (w0 : Mat d d) (b0 : Fin d → EReal) (w1 : Mat d d) (b1 : Fin d → EReal)
    (w2 : Mat d d) (b2 : Fin d → EReal) : Mat n d :=
  layerK f (relu (layerK f (relu (layerK f y w0 b0)) w1 b1)) w2 b2

/-- Each column's sum from the word 0, divided by the word 4096. -/
def colMean {n : ℕ} (d0 : Mat n n) : Fin n → EReal := fun i => Ideal.div (zeroW + ∑ r : Fin n, d0 r i) n4096W

def scaleRows {n d : ℕ} (g : Fin n → EReal) (x : Mat n d) : Mat n d := fun i j => g i * x i j

def mat {n m : ℕ} (x : (⟨2, ![n, m]⟩ : Shape).Idx → EReal) : Mat n m := fun i j => x (ix2 i j)

def row {n : ℕ} (x : (⟨1, ![n]⟩ : Shape).Idx → EReal) : Fin n → EReal := fun j => x (ix1 j)

def chan {n : ℕ} (x : (⟨3, ![n, n, 2]⟩ : Shape).Idx → EReal) (ch : Fin 2) : Mat n n := fun i j => x (ix3 i j ch)

/-- The value both programs are compared with: the three-layer network in the first grouping, each row scaled by a column mean. -/
def result (y : (⟨2, ![4096, 256]⟩ : Shape).Idx → EReal) (adj dadj : (⟨3, ![4096, 4096, 2]⟩ : Shape).Idx → EReal)
    (w0 : (⟨2, ![256, 256]⟩ : Shape).Idx → EReal) (b0 : (⟨1, ![256]⟩ : Shape).Idx → EReal)
    (w1 : (⟨2, ![256, 256]⟩ : Shape).Idx → EReal) (b1 : (⟨1, ![256]⟩ : Shape).Idx → EReal)
    (w2 : (⟨2, ![256, 256]⟩ : Shape).Idx → EReal) (b2 : (⟨1, ![256]⟩ : Shape).Idx → EReal) :
    (⟨2, ![4096, 256]⟩ : Shape).Idx → EReal :=
  fun idx => scaleRows (colMean (chan dadj 0))
    (netR (mm (chan dadj 1) (chan adj 1)) (mat y) (mat w0) (row b0) (mat w1) (row b1) (mat w2) (row b2)) (idx 0) (idx 1)

/-- The same network in the second grouping. -/
def resultK (y : (⟨2, ![4096, 256]⟩ : Shape).Idx → EReal) (adj dadj : (⟨3, ![4096, 4096, 2]⟩ : Shape).Idx → EReal)
    (w0 : (⟨2, ![256, 256]⟩ : Shape).Idx → EReal) (b0 : (⟨1, ![256]⟩ : Shape).Idx → EReal)
    (w1 : (⟨2, ![256, 256]⟩ : Shape).Idx → EReal) (b1 : (⟨1, ![256]⟩ : Shape).Idx → EReal)
    (w2 : (⟨2, ![256, 256]⟩ : Shape).Idx → EReal) (b2 : (⟨1, ![256]⟩ : Shape).Idx → EReal) :
    (⟨2, ![4096, 256]⟩ : Shape).Idx → EReal :=
  fun idx => scaleRows (colMean (chan dadj 0))
    (netK (mm (chan dadj 1) (chan adj 1)) (mat y) (mat w0) (row b0) (mat w1) (row b1) (mat w2) (row b2)) (idx 0) (idx 1)

end Cert.Spec

end
-- ==== Proof.LibDotSum.lean ====
import Idealize.ShloMosaic.PureOps.Ideal.Laws
import Idealize.ShloMosaic.Lib.ValueIdx

noncomputable section

namespace Cert.Lib

open Idealize.ShloMosaic Idealize.ShloMosaic.ValueIdx

variable {M K N : Nat}

def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- A rows-by-columns contraction of two matrices, summed over its own index type, is the sum over the shared axis. -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

variable (wg : DotDims.WF ⟨2, ![K, M]⟩ ⟨2, ![K, N]⟩ ⟨2, ![M, N]⟩ [0] [0] [1] [1] [] [])

/-- At the extended reals a rows-by-columns matrix product into the zero block, and the host's, is the plain sum at each entry. -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibRunSums.lean ====
import Mathlib.Data.Fintype.BigOperators
import Mathlib.Logic.Equiv.Fin.Basic
import Mathlib.Algebra.BigOperators.Fin

namespace Cert.Lib

variable {β : Type} [AddCommMonoid β]

/-- A sum over `B · C` terms is the sum, over `B` runs, of each run's `C` terms. -/
theorem sum_eq_sum_runs (B C n : ℕ) (hn : n = B * C) (f : ℕ → β) :
    ∑ x : Fin n, f x.val = ∑ b : Fin B, ∑ c : Fin C, f (b.val * C + c.val) := by
  subst hn
  rw [← Fintype.sum_prod_type' (fun (b : Fin B) (c : Fin C) => f (b.val * C + c.val))]
  refine (Fintype.sum_equiv finProdFinEquiv (fun p : Fin B × Fin C => f (p.1.val * C + p.2.val)) (fun x => f x.val)
    fun p => ?_).symm
  show f (p.1.val * C + p.2.val) = f (p.2.val + C * p.1.val)
  rw [Nat.add_comm, Nat.mul_comm]

end Cert.Lib
-- ==== Proof.HandIdeal.R0Value.lean ====
import proofs.«123138_j12206297055730_1_alg».proof.Proof.HandIdeal.R0Frame
import proofs.«123138_j12206297055730_1_alg».proof.Proof.Spec
import proofs.«123138_j12206297055730_1_alg».proof.Proof.LibDotSum
import proofs.«123138_j12206297055730_1_alg».proof.Proof.LibRunSums
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open scoped BigOperators

variable {F : FTy → Type} [FloatOps F]

theorem hz0 : (![0, 0] : Fin 2 → Nat) = fun _ => 0 := funext fun a => by fin_cases a <;> rfl

section Pieces

variable (c : Dev nD) (i : grid0.Coords) (arg3 : Memref sig .tc .vmem S1024x512 .f32) (harg3 : arg3.IsWhole) (arg4 : Memref sig .tc .vmem S512x2048 .f32) (harg4 : arg4.IsWhole) (arg5 : Memref sig .tc .vmem S1024x2048 .bf16) (harg5 : arg5.IsWhole) (arg6 : Memref sig .tc .vmem S1024x2048 .f32) (harg6 : arg6.IsWhole)
  (x0 : Vec F S1024x512 .f32) (x1 : Vec F S512x2048 .f32) (xs0 : Vec F S1024x2048 .f32)

/-- Where the accumulator is reset it is left at the product of the two staged blocks added to the zero block. -/
theorem accA0_eq (hc0 : cond0_0 i) (hc1 : ¬cond0_1 i) :
    rd0 (kernelRun0_A c i arg3 harg3 arg4 harg4 arg5 harg5 arg6 harg6 hc0 hc1 x0 x1).2.1 = k0_pay2 x0 x1 (k0_pay1) := by
  unfold rd0
  rw [View.read_writes_eq_canon _ _ _ (scover0_A _ _ _ _ _ _ _ _ _ _ _ _ _ _)]
  unfold kernelRun0_A
  dsimp only
  sl_unfold_words
  rw [View.canon_cons_unit_zero (S := S1024x2048) hz0]
  simp only [View.readAt_eq_ld, harg3.read_unread, harg4.read_unread, harg5.read_unread, harg6.read_unread,
    View.readCov_unit_zero (S := S1024x2048) _ hz0,
    View.ld_unit_zero (S := S1024x512) hz0, View.ld_unit_zero (S := S512x2048) hz0, View.ld_unit_zero (S := S1024x2048) hz0]

/-- Between the reset and the store it is left at what it held plus the product. -/
theorem accB0_eq (hc0 : ¬cond0_0 i) (hc1 : ¬cond0_1 i) :
    rd0 (kernelRun0_B c i arg3 harg3 arg4 harg4 arg5 harg5 arg6 harg6 hc0 hc1 x0 x1 xs0).2.1 = k0_pay2 x0 x1 xs0 := by
  unfold rd0
  rw [View.read_writes_eq_canon _ _ _ (scover0_B _ _ _ _ _ _ _ _ _ _ _ _ _ _ _)]
  unfold kernelRun0_B
  dsimp only
  sl_unfold_words
  rw [View.canon_unit_zero (S := S1024x2048) hz0]
  simp only [View.readAt_eq_ld, harg3.read_unread, harg4.read_unread, harg5.read_unread, harg6.read_unread,
    View.ld_unit_zero (S := S1024x512) hz0, View.ld_unit_zero (S := S512x2048) hz0, View.ld_unit_zero (S := S1024x2048) hz0]

/-- Where the block is stored the output's buffer is left at the narrowed accumulator, read after this run's accumulation. -/
theorem outC0_eq (hc0 : ¬cond0_0 i) (hc1 : cond0_1 i) :
    ro0 (kernelRun0_C c i arg3 harg3 arg4 harg4 arg5 harg5 arg6 harg6 hc0 hc1 x0 x1 xs0).1 = k0_pay3 (k0_pay2 x0 x1 xs0) := by
  unfold ro0
  rw [View.read_writes_eq_canon _ _ _ (cover0_C _ _ _ _ _ _ _ _ _ _ _ _ _ _ _)]
  unfold kernelRun0_C
  dsimp only
  sl_unfold_words
  rw [View.canon_unit_zero (S := S1024x2048) hz0]
  simp only [View.readAt_eq_ld, harg3.read_unread, harg4.read_unread, harg5.read_unread, harg6.read_unread,
    View.readCov_unit_zero (S := S1024x2048) _ hz0,
    View.ld_unit_zero (S := S1024x512) hz0, View.ld_unit_zero (S := S512x2048) hz0, View.ld_unit_zero (S := S1024x2048) hz0]

end Pieces

open Idealize.ShloMosaic.ValueIdx in

theorem pay1_apply (p : Fin 1024) (q : Fin 2048) : (k0_pay1 (F := Ideal)) (ValueIdx.ix2 p q) = Cert.Spec.zeroW := by
  unfold k0_pay1
  simp only [shapeCast_self]
  rfl

theorem pay2_apply (x0 : Vec Ideal S1024x512 .f32) (x1 : Vec Ideal S512x2048 .f32) (xs : Vec Ideal S1024x2048 .f32)
    (p : Fin 1024) (q : Fin 2048) :
    (k0_pay2 x0 x1 xs (ValueIdx.ix2 p q) : EReal)
      = (xs (ValueIdx.ix2 p q) : EReal) + ∑ l : Fin 512, (x0 (ValueIdx.ix2 p l) : EReal) * (x1 (ValueIdx.ix2 l q) : EReal) := by
  unfold k0_pay2
  simp only [shapeCast_self]
  exact congrArg (fun z : EReal => (xs (ValueIdx.ix2 p q) : EReal) + z)
    (Cert.Lib.matmul_rc_apply dot_S1024x512_S512x2048_S1024x2048_1_0_0_1_n_n rfl rfl rfl rfl rfl rfl none
      (truncf .bf16 x0 bitsLt_bf16_f32) (truncf .bf16 x1 bitsLt_bf16_f32) p q)

theorem pay3_apply (v : Vec Ideal S1024x2048 .f32) (p : Fin 1024) (q : Fin 2048) :
    (k0_pay3 v (ValueIdx.ix2 p q) : EReal) = (v (ValueIdx.ix2 p q) : EReal) := rfl

section Recurrence

variable (V : (c : Dev nD) → (b : Ref sig .tc) → Buf (Elt F) ((c : Thread nD τ).loc b))

abbrev dablk (c : Dev nD) (t : Fin cfg0.N) : Vec F S1024x512 .f32 := iblk0 V c 0 t

abbrev ablk (c : Dev nD) (t : Fin cfg0.N) : Vec F S512x2048 .f32 := iblk0 V c 1 t

/-- The accumulator after a point, by the point's position in its run of eight. -/
theorem acc_A (c : Dev nD) (t : Fin cfg0.N) (h0 : t.val % 8 = 0) :
    (outsAt0 V c t.val t.isLt).2 = k0_pay2 (dablk V c t) (ablk V c t) k0_pay1 := by
  rw [outsAt0_A V c t h0]; dsimp only
  exact accA0_eq c (grid0.coords t) (ms0_0 t) (hs0_0 t) (ms0_1 t) (hs0_1 t) (ms0_2 t) (hs0_2 t) scM0_0 (Memref.isWhole_whole _) (iblk0 V c 0 t) (iblk0 V c 1 t) _ _

theorem acc_B (c : Dev nD) (t : Fin cfg0.N) (h0 : ¬t.val % 8 = 0) (h1 : ¬t.val % 8 = 7) :
    (outsAt0 V c t.val t.isLt).2 = k0_pay2 (dablk V c t) (ablk V c t) (accBefore0 V c t) := by
  rw [outsAt0_B V c t h0 h1]; dsimp only
  exact accB0_eq c (grid0.coords t) (ms0_0 t) (hs0_0 t) (ms0_1 t) (hs0_1 t) (ms0_2 t) (hs0_2 t) scM0_0 (Memref.isWhole_whole _) (iblk0 V c 0 t) (iblk0 V c 1 t) (accBefore0 V c t) _ _

/-- The output's buffer after the last of the eight: the narrowed sum of what the point before left and the point's product. -/
theorem out_C (c : Dev nD) (t : Fin cfg0.N) (h0 : ¬t.val % 8 = 0) (h1 : t.val % 8 = 7) :
    (outsAt0 V c t.val t.isLt).1 = k0_pay3 (k0_pay2 (dablk V c t) (ablk V c t) (accBefore0 V c t)) := by
  rw [outsAt0_C V c t h0 h1]; dsimp only
  exact outC0_eq c (grid0.coords t) (ms0_0 t) (hs0_0 t) (ms0_1 t) (hs0_1 t) (ms0_2 t) (hs0_2 t) scM0_0 (Memref.isWhole_whole _) (iblk0 V c 0 t) (iblk0 V c 1 t) (accBefore0 V c t) _ _

end Recurrence

section Exact

variable (V : (c : Dev nD) → (b : Ref sig .tc) → Buf (Elt Ideal) ((c : Thread nD τ).loc b))

def prodAt (c : Dev nD) (p : Fin 1024) (q : Fin 2048) (n : ℕ) : EReal :=
  if h : n < cfg0.N then
    ∑ l : Fin 512, (dablk (F := Ideal) V c ⟨n, h⟩ (ValueIdx.ix2 p l) : EReal) * (ablk (F := Ideal) V c ⟨n, h⟩ (ValueIdx.ix2 l q) : EReal)
  else 0

theorem prodAt_of_lt (c : Dev nD) (p : Fin 1024) (q : Fin 2048) (n : ℕ) (h : n < cfg0.N) :
    prodAt V c p q n
      = ∑ l : Fin 512, (dablk (F := Ideal) V c ⟨n, h⟩ (ValueIdx.ix2 p l) : EReal) * (ablk (F := Ideal) V c ⟨n, h⟩ (ValueIdx.ix2 l q) : EReal) := by
  unfold prodAt; rw [dif_pos h]

theorem acc_inv (c : Dev nD) (p : Fin 1024) (q : Fin 2048) : ∀ (n : ℕ) (hn : n < cfg0.N), n % 8 ≠ 7 →
    ((outsAt0 (F := Ideal) V c n hn).2 (ValueIdx.ix2 p q) : EReal)
      = Cert.Spec.zeroW + ∑ b ∈ Finset.range (n % 8 + 1), prodAt V c p q (8 * (n / 8) + b) := by
  intro n
  induction n using Nat.strong_induction_on with
  | _ n ih =>
    intro hn h7
    by_cases h0 : n % 8 = 0
    · have e : (outsAt0 (F := Ideal) V c n hn).2 = _ := acc_A (F := Ideal) V c ⟨n, hn⟩ h0
      refine (congrFun e (ValueIdx.ix2 p q)).trans ?_
      refine (pay2_apply (dablk (F := Ideal) V c ⟨n, hn⟩) (ablk (F := Ideal) V c ⟨n, hn⟩) (k0_pay1 (F := Ideal)) p q).trans ?_
      have en : 8 * (n / 8) + 0 = n := by omega
      rw [pay1_apply, h0, Nat.zero_add, Finset.sum_range_one, en, prodAt_of_lt V c p q n hn]
    · have e : (outsAt0 (F := Ideal) V c n hn).2 = _ := acc_B (F := Ideal) V c ⟨n, hn⟩ h0 h7
      refine (congrFun e (ValueIdx.ix2 p q)).trans ?_
      refine (pay2_apply (dablk (F := Ideal) V c ⟨n, hn⟩) (ablk (F := Ideal) V c ⟨n, hn⟩) _ p q).trans ?_
      have ihm := ih (n - 1) (by omega) (Nat.lt_of_le_of_lt (Nat.sub_le _ _) hn) (by omega)
      have ek : (n - 1) % 8 + 1 = n % 8 := by omega
      have er : (n - 1) / 8 = n / 8 := by omega
      rw [ek, er] at ihm
      have en : 8 * (n / 8) + n % 8 = n := by omega
      rw [Finset.sum_range_succ, en, prodAt_of_lt V c p q n hn, ← add_assoc]
      exact congrArg (fun z : EReal => z + ∑ l : Fin 512, (dablk (F := Ideal) V c ⟨n, hn⟩ (ValueIdx.ix2 p l) : EReal) * (ablk (F := Ideal) V c ⟨n, hn⟩ (ValueIdx.ix2 l q) : EReal)) ihm

theorem out_val (c : Dev nD) (p : Fin 1024) (q : Fin 2048) (t : Fin cfg0.N) (h7 : t.val % 8 = 7) :
    ((outsAt0 (F := Ideal) V c t.val t.isLt).1 (ValueIdx.ix2 p q) : EReal)
      = Cert.Spec.zeroW + ∑ b ∈ Finset.range (7 + 1), prodAt V c p q (8 * (t.val / 8) + b) := by
  have e := out_C (F := Ideal) V c t (by omega) h7
  refine (congrFun e (ValueIdx.ix2 p q)).trans ?_
  refine (pay3_apply _ p q).trans ?_
  refine (pay2_apply (dablk (F := Ideal) V c t) (ablk (F := Ideal) V c t) _ p q).trans ?_
  have ihm := acc_inv V c p q (t.val - 1) (Nat.lt_of_le_of_lt (Nat.sub_le _ _) t.isLt) (by omega)
  have ek : (t.val - 1) % 8 + 1 = 7 := by omega
  have er : (t.val - 1) / 8 = t.val / 8 := by omega
  rw [ek, er] at ihm
  have en : 8 * (t.val / 8) + 7 = t.val := by omega
  rw [Finset.sum_range_succ, en, prodAt_of_lt V c p q t.val t.isLt, ← add_assoc]
  exact congrArg (fun z : EReal => z + ∑ l : Fin 512, (dablk (F := Ideal) V c t (ValueIdx.ix2 p l) : EReal) * (ablk (F := Ideal) V c t (ValueIdx.ix2 l q) : EReal)) ihm

def atN (X : Vec Ideal S4096x4096 .f32) (i j : ℕ) : EReal :=
  if h : i < 4096 ∧ j < 4096 then (X (ValueIdx.ix2 ⟨i, h.1⟩ ⟨j, h.2⟩) : EReal) else 0

theorem atN_eq (X : Vec Ideal S4096x4096 .f32) (i j : Fin 4096) : atN X i.val j.val = (X (ValueIdx.ix2 i j) : EReal) := by
  unfold atN; rw [dif_pos ⟨i.isLt, j.isLt⟩]

abbrev daarr (c : Dev nD) : Vec Ideal S4096x4096 .f32 := V c main_v3

abbrev aarr (c : Dev nD) : Vec Ideal S4096x4096 .f32 := V c main_v1

theorem idx_facts0 : ∀ s : Fin cfg0.N,
    win0_0.index s (0 : Fin 2) = s.val / 16 ∧ win0_0.index s (1 : Fin 2) = s.val % 8
    ∧ win0_1.index s (0 : Fin 2) = s.val % 8 ∧ win0_1.index s (1 : Fin 2) = s.val / 8 % 2
    ∧ win0_2.index s (0 : Fin 2) = s.val / 16 ∧ win0_2.index s (1 : Fin 2) = s.val / 8 % 2 :=
  (by decide +kernel : ∀ s : Fin grid0.N, _)

theorem dablk_apply (c : Dev nD) (s : Fin cfg0.N) (p : Fin 1024) (l : Fin 512) :
    (dablk (F := Ideal) V c s (ValueIdx.ix2 p l) : EReal)
      = atN (daarr V c) (s.val / 16 * 1024 + p.val) (s.val % 8 * 512 + l.val) := by
  obtain ⟨e0, e1, -, -, -, -⟩ := idx_facts0 s
  have hs : s.val < 64 := by have := s.isLt; have hN : cfg0.N = 64 := N_0; omega
  unfold atN
  rw [dif_pos ⟨by omega, by omega⟩]
  unfold dablk iblk0
  rw [View.read_apply]
  show V c main_v3 _ = V c main_v3 _
  congr 1
  funext a
  apply Fin.ext
  match a with
  | ⟨0, _⟩ => show win0_0.index s (0 : Fin 2) * 1024 + 1 * p.val = s.val / 16 * 1024 + p.val; rw [e0]; omega
  | ⟨1, _⟩ => show win0_0.index s (1 : Fin 2) * 512 + 1 * l.val = s.val % 8 * 512 + l.val; rw [e1]; omega

theorem ablk_apply (c : Dev nD) (s : Fin cfg0.N) (l : Fin 512) (q : Fin 2048) :
    (ablk (F := Ideal) V c s (ValueIdx.ix2 l q) : EReal)
      = atN (aarr V c) (s.val % 8 * 512 + l.val) (s.val / 8 % 2 * 2048 + q.val) := by
  obtain ⟨-, -, e2, e3, -, -⟩ := idx_facts0 s
  have hs : s.val < 64 := by have := s.isLt; have hN : cfg0.N = 64 := N_0; omega
  unfold atN
  rw [dif_pos ⟨by omega, by omega⟩]
  unfold ablk iblk0
  rw [View.read_apply]
  show V c main_v1 _ = V c main_v1 _
  congr 1
  funext a
  apply Fin.ext
  match a with
  | ⟨0, _⟩ => show win0_1.index s (0 : Fin 2) * 512 + 1 * l.val = s.val % 8 * 512 + l.val; rw [e2]; omega
  | ⟨1, _⟩ => show win0_1.index s (1 : Fin 2) * 2048 + 1 * q.val = s.val / 8 % 2 * 2048 + q.val; rw [e3]; omega

theorem prodAt_eq (c : Dev nD) (p : Fin 1024) (q : Fin 2048) (n : ℕ) (hn : n < cfg0.N) :
    prodAt V c p q n
      = ∑ l : Fin 512, atN (daarr V c) (n / 16 * 1024 + p.val) (n % 8 * 512 + l.val)
          * atN (aarr V c) (n % 8 * 512 + l.val) (n / 8 % 2 * 2048 + q.val) := by
  rw [prodAt_of_lt V c p q n hn]
  refine Finset.sum_congr rfl fun l _ => ?_
  exact congrArg₂ (fun x y : EReal => x * y) (dablk_apply V c ⟨n, hn⟩ p l) (ablk_apply V c ⟨n, hn⟩ l q)

theorem runs_sum (c : Dev nD) (p : Fin 1024) (q : Fin 2048) (r : ℕ) (hr : r < 8) :
    ∑ b ∈ Finset.range (7 + 1), prodAt V c p q (8 * r + b)
      = ∑ x : Fin 4096, atN (daarr V c) (r / 2 * 1024 + p.val) x.val * atN (aarr V c) x.val (r % 2 * 2048 + q.val) := by
  have hN : cfg0.N = 64 := N_0
  rw [Finset.sum_range]
  refine Eq.trans ?_ (Cert.Lib.sum_eq_sum_runs 8 512 4096 rfl
    (fun x => atN (daarr V c) (r / 2 * 1024 + p.val) x * atN (aarr V c) x (r % 2 * 2048 + q.val))).symm
  refine Finset.sum_congr rfl fun b _ => ?_
  have hb : b.val < 8 := b.isLt
  rw [prodAt_eq V c p q (8 * r + b.val) (by omega)]
  have h1 : (8 * r + b.val) / 16 = r / 2 := by omega
  have h2 : (8 * r + b.val) % 8 = b.val := by omega
  have h3 : (8 * r + b.val) / 8 % 2 = r % 2 := by omega
  rw [h1, h2, h3]

theorem zeroW_add (x : EReal) : Cert.Spec.zeroW + x = x := by
  show Ideal.ofBits .f32 0x00000000#32 + x = x
  rw [Ideal.ofBits_zero_f32, zero_add]

abbrev G0 (c : Dev nD) : Buf (Elt Ideal) ((c : Thread nD τ).loc main_v9) :=
  fun idx => Cert.Spec.mm (Cert.Spec.mat (V c main_v3)) (Cert.Spec.mat (V c main_v1)) (idx 0) (idx 1)

theorem G0_apply (c : Dev nD) (idx : S4096x4096.Idx) (I J : ℕ) (hI : (idx 0).val = I) (hJ : (idx 1).val = J) :
    (G0 V c idx : EReal) = ∑ x : Fin 4096, atN (daarr V c) I x.val * atN (aarr V c) x.val J := by
  subst hI hJ
  show Cert.Spec.mm (Cert.Spec.mat (V c main_v3)) (Cert.Spec.mat (V c main_v1)) (idx 0) (idx 1) = _
  unfold Cert.Spec.mm Cert.Spec.mat
  refine Finset.sum_congr rfl fun x _ => ?_
  exact (congrArg₂ (fun x y : EReal => x * y) (atN_eq (daarr V c) (idx 0) x) (atN_eq (aarr V c) x (idx 1))).symm

theorem flushed0_eq (c : Dev nD) (t : Fin cfg0.N) (hf : (cfg0.win 2).flush t = true) :
    (dat0 (F := Ideal) V c).flushed 2 t = ((cfg0.win 2).blk t).view.read (Elt Ideal) (G0 V c) := by
  have h7 : t.val % 8 = 7 := (flush0_2 t).mp hf
  have ht : t.val < 64 := by have := t.isLt; have hN : cfg0.N = 64 := N_0; omega
  show (cfg0.win 2).cut (grid0.coords t) ((dat0 (F := Ideal) V c).after 2 t) = _
  rw [after0_2]
  funext j
  obtain ⟨p, q, rfl⟩ : ∃ (p : Fin 1024) (q : Fin 2048), j = ValueIdx.ix2 p q := ⟨j 0, j 1, ValueIdx.eq_ix2 j⟩
  rw [View.read_apply]
  show ((outsAt0 (F := Ideal) V c t.val t.isLt).1 (ValueIdx.ix2 p q) : EReal) = G0 V c (((cfg0.win 2).blk t).view.emb (ValueIdx.ix2 p q))
  obtain ⟨-, -, -, -, e4, e5⟩ := idx_facts0 t
  rw [out_val V c p q t h7, runs_sum V c p q (t.val / 8) (by omega), zeroW_add,
    G0_apply V c _ (t.val / 8 / 2 * 1024 + p.val) (t.val / 8 % 2 * 2048 + q.val)
      (by show win0_2.index t (0 : Fin 2) * 1024 + 1 * p.val = _; rw [e4]; omega)
      (by show win0_2.index t (1 : Fin 2) * 2048 + 1 * q.val = _; rw [e5]; omega)]

theorem mem_blk0 (t : Fin cfg0.N) (i : S4096x4096.Idx) :
    i ∈ ((cfg0.win 2).blk t).view.set
      ↔ ∀ a : Fin 2, win0_2.index t a * S1024x2048.size a ≤ (i a).val ∧ (i a).val < win0_2.index t a * S1024x2048.size a + S1024x2048.size a := by
  show i ∈ ((View.whole main_v9).slice (win0_2.rect t)).set ↔ _
  rw [View.set_slice_whole, Rect.mem_set_unit]
  exact Iff.rfl

theorem cover0 (i : S4096x4096.Idx) : ∃ t : Fin cfg0.N, (cfg0.win 2).flush t = true ∧ i ∈ ((cfg0.win 2).blk t).view.set := by
  have h0 : (i 0).val < 4096 := (i 0).isLt
  have h1 : (i 1).val < 4096 := (i 1).isLt
  have hN : cfg0.N = 64 := N_0
  obtain ⟨t, ht⟩ : ∃ t : Fin cfg0.N, t.val = 16 * ((i 0).val / 1024) + 8 * ((i 1).val / 2048) + 7 := ⟨⟨_, by omega⟩, rfl⟩
  obtain ⟨-, -, -, -, e4, e5⟩ := idx_facts0 t
  refine ⟨t, (flush0_2 t).mpr (by omega), ?_⟩
  rw [mem_blk0]
  intro a
  match a with
  | ⟨0, _⟩ => show win0_2.index t (0 : Fin 2) * 1024 ≤ (i 0).val ∧ (i 0).val < win0_2.index t (0 : Fin 2) * 1024 + 1024; rw [e4]; omega
  | ⟨1, _⟩ => show win0_2.index t (1 : Fin 2) * 2048 ≤ (i 1).val ∧ (i 1).val < win0_2.index t (1 : Fin 2) * 2048 + 2048; rw [e5]; omega

end Exact

/-- The call's value: a run's eight partial products regroup into one sum over the shared axis, and the last points' blocks cover the array. -/
theorem final0 (V : (c : Dev nD) → (b : Ref sig .tc) → Buf (Elt Ideal) ((c : Thread nD τ).loc b)) (c : Dev nD) :
    (dat0 (F := Ideal) V c).arrAt 2 cfg0.N
      = fun idx => Cert.Spec.mm (Cert.Spec.mat (V c main_v3)) (Cert.Spec.mat (V c main_v1)) (idx 0) (idx 1) :=
  (dat0 (F := Ideal) V c).arrAt_eq_of_cover 2 (G0 V c) (flushed0_eq V c) cover0

end Cert.KernelIdeal.Hand

end
-- ==== Proof.HandIdeal.R1Post.lean ====
import proofs.«123138_j12206297055730_1_alg».proof.Proof.HandIdeal.R1Frame
import proofs.«123138_j12206297055730_1_alg».proof.Proof.Spec
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.ValueIdx

def post1 (x : EReal) : EReal := max x Cert.Spec.zeroW

theorem pay3_apply1 (acc : Vec Ideal S2048x256 .f32) (b : Vec Ideal S1x256 .f32) (p : Fin 2048) (q : Fin 256) :
    (k1_pay3 acc b (ix2 p q) : EReal) = post1 ((acc (ix2 p q) : EReal) + (b (ix2 0 q) : EReal)) := by
  unfold k1_pay3 post1
  simp only [shapeCast_self]
  refine (maximumf_apply _ _ _).trans ?_
  refine congrArg (fun s : EReal => max s Cert.Spec.zeroW) ?_
  refine (addf_apply _ _ _).trans ?_
  refine congrArg (fun s : EReal => (acc (ix2 p q) : EReal) + s) ?_
  exact broadcastTo_apply b broadcasts_S1x256_S2048x256 (ix2 p q) (ix2 0 q) (fun a => by
    match a with
    | ⟨0, _⟩ => rfl
    | ⟨1, _⟩ => rfl)

end Cert.KernelIdeal.Hand

end
-- ==== Proof.HandIdeal.R1Value.lean ====
import proofs.«123138_j12206297055730_1_alg».proof.Proof.HandIdeal.R1Post
import proofs.«123138_j12206297055730_1_alg».proof.Proof.LibDotSum
import proofs.«123138_j12206297055730_1_alg».proof.Proof.LibRunSums
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open scoped BigOperators

section Pieces

variable {F : FTy → Type} [FloatOps F]
variable (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)
  (x0 : Vec F S2048x2048 .bf16) (x1 : Vec F S2048x256 .bf16) (x2 : Vec F S1x256 .f32) (xs0 : Vec F S2048x256 .f32)

theorem hz1 : (![0, 0] : Fin 2 → Nat) = fun _ => 0 := funext fun a => by fin_cases a <;> rfl

/-- Where the block is stored the accumulator is left at the product of the two staged blocks added to what it held. -/
theorem accB1_eq (hc0 : ¬cond1_0 i) (hc1 : cond1_1 i) :
    rd1 (kernelRun1_B c i arg2 harg2 arg3 harg3 arg4 harg4 arg5 harg5 arg6 harg6 hc0 hc1 x0 x1 x2 xs0).2.1 = k1_pay2 x0 x1 xs0 := by
  unfold rd1
  rw [View.read_writes_eq_canon _ _ _ (scover1_B _ _ _ _ _ _ _ _ _ _ _ _ _ _ _ _ _ _)]
  unfold kernelRun1_B
  dsimp only
  sl_unfold_words
  rw [View.canon_unit_zero hz1]
  simp only [View.readAt_eq_ld, harg2.read_unread, harg3.read_unread, harg6.read_unread, View.ld_unit_zero (S := S2048x2048) hz1, View.ld_unit_zero (S := S2048x256) hz1]

/-- And the output's buffer at the epilogue of the accumulator as the same run has just left it. -/
theorem outB1_eq (hc0 : ¬cond1_0 i) (hc1 : cond1_1 i) :
    rd1 (kernelRun1_B c i arg2 harg2 arg3 harg3 arg4 harg4 arg5 harg5 arg6 harg6 hc0 hc1 x0 x1 x2 xs0).1 = k1_pay3 (k1_pay2 x0 x1 xs0) x2 := by
  unfold rd1
  rw [View.read_writes_eq_canon _ _ _ (cover1_B _ _ _ _ _ _ _ _ _ _ _ _ _ _ _ _ _ _)]
  unfold kernelRun1_B
  dsimp only
  sl_unfold_words
  rw [View.canon_unit_zero hz1]
  simp only [View.readAt_eq_ld, harg2.read_unread, harg3.read_unread, harg4.read_unread, harg6.read_unread, View.ld_unit_zero (S := S2048x2048) hz1, View.ld_unit_zero (S := S2048x256) hz1, View.ld_unit_zero (S := S1x256) hz1, View.readCov_unit_zero (S := S2048x256) _ hz1]

/-- Where the accumulator is reset it is left at the product of the two staged blocks added to the zero block. -/
theorem accA1_eq (hc0 : cond1_0 i) (hc1 : ¬cond1_1 i) :
    rd1 (kernelRun1_A c i arg2 harg2 arg3 harg3 arg4 harg4 arg5 harg5 arg6 harg6 hc0 hc1 x0 x1 x2).2.1 = k1_pay2 x0 x1 (k1_pay1 (F := F)) := by
  unfold rd1
  rw [View.read_writes_eq_canon _ _ _ (scover1_A _ _ _ _ _ _ _ _ _ _ _ _ _ _ _ _ _)]
  unfold kernelRun1_A
  dsimp only
  sl_unfold_words
  rw [View.canon_cons_unit_zero (S := S2048x256) hz1, View.readCov_unit_zero (S := S2048x256) _ hz1]
  simp only [View.readAt_eq_ld, harg2.read_unread, harg3.read_unread, View.ld_unit_zero (S := S2048x2048) hz1, View.ld_unit_zero (S := S2048x256) hz1]

end Pieces

section AtIndex

open ValueIdx

theorem zero_apply1 (p : Fin 2048) (q : Fin 256) : (k1_pay1 (F := Ideal) (ix2 p q) : EReal) = 0 := by
  unfold k1_pay1
  simp only [shapeCast_self]
  exact Ideal.ofBits_zero_f32

theorem step_apply1 (x0 : Vec Ideal S2048x2048 .bf16) (x1 : Vec Ideal S2048x256 .bf16) (acc : Vec Ideal S2048x256 .f32) (p : Fin 2048) (q : Fin 256) :
    (k1_pay2 x0 x1 acc (ix2 p q) : EReal) = (acc (ix2 p q) : EReal) + ∑ l : Fin 2048, (x0 (ix2 p l) : EReal) * (x1 (ix2 l q) : EReal) := by
  unfold k1_pay2
  simp only [shapeCast_self]
  refine (addf_apply _ _ _).trans ?_
  exact congrArg (fun s : EReal => (acc (ix2 p q) : EReal) + s)
    (Cert.Lib.matmul_rc_apply dot_S2048x2048_S2048x256_S2048x256_1_0_0_1_n_n rfl rfl rfl rfl rfl rfl none x0 x1 p q)

end AtIndex

section Points

variable {F : FTy → Type} [FloatOps F]
variable (V : (c : Dev nD) → (b : Ref sig .tc) → Buf (Elt F) ((c : Thread nD τ).loc b))

abbrev fblk1 (c : Dev nD) (t : Fin cfg1.N) : Vec F S2048x2048 .bf16 := iblk1 V c 0 t
abbrev zblk1 (c : Dev nD) (t : Fin cfg1.N) : Vec F S2048x256 .bf16 := iblk1 V c 1 t
abbrev bblk1 (c : Dev nD) (t : Fin cfg1.N) : Vec F S1x256 .f32 := iblk1 V c 2 t
abbrev farr1 (c : Dev nD) : Vec F S4096x4096 .bf16 := V c main_v9
abbrev zarr1 (c : Dev nD) : Vec F S4096x256 .bf16 := V c main_v11
abbrev barr1 (c : Dev nD) : Vec F S1x256 .f32 := V c main_v12

abbrev prev1 (t : Fin cfg1.N) : Fin cfg1.N := ⟨t.val - 1, Nat.lt_of_le_of_lt (Nat.sub_le _ _) t.isLt⟩

theorem acc1_even (c : Dev nD) (t : Fin cfg1.N) (h0 : t.val % 2 = 0) :
    (outsAt1 V c t.val t.isLt).2 = k1_pay2 (fblk1 V c t) (zblk1 V c t) (k1_pay1 (F := F)) := by
  rw [outsAt1_A V c t h0]
  dsimp only
  exact accA1_eq c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t) (iblk1 V c 2 t) _ _

/-- After an odd point the output's buffer holds the epilogue of the two products added in the points' order. -/
theorem out1_odd (c : Dev nD) (t : Fin cfg1.N) (h0 : ¬t.val % 2 = 0) :
    (outsAt1 V c t.val t.isLt).1
      = k1_pay3 (k1_pay2 (fblk1 V c t) (zblk1 V c t) (k1_pay2 (fblk1 V c (prev1 t)) (zblk1 V c (prev1 t)) (k1_pay1 (F := F)))) (bblk1 V c t) := by
  rw [outsAt1_B V c t h0]
  dsimp only
  refine (outB1_eq c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t) (iblk1 V c 2 t) (accBefore1 V c t) _ _).trans ?_
  rw [show accBefore1 V c t = _ from acc1_even V c (prev1 t) (by show (t.val - 1) % 2 = 0; omega)]

theorem idx_facts1 : ∀ t : Fin cfg1.N,
    win1_0.index t (0 : Fin 2) = t.val / 2 ∧ win1_0.index t (1 : Fin 2) = t.val % 2
    ∧ win1_1.index t (0 : Fin 2) = t.val % 2 ∧ win1_1.index t (1 : Fin 2) = 0
    ∧ win1_2.index t (0 : Fin 2) = 0 ∧ win1_2.index t (1 : Fin 2) = 0
    ∧ win1_3.index t (0 : Fin 2) = t.val / 2 ∧ win1_3.index t (1 : Fin 2) = 0 :=
  (by decide +kernel : ∀ t : Fin grid1.N, _)

theorem fblk1_apply (c : Dev nD) (t : Fin cfg1.N) (p l : Fin 2048) (P L : Fin 4096)
    (hP : P.val = 2048 * (t.val / 2) + p.val) (hL : L.val = 2048 * (t.val % 2) + l.val) :
    fblk1 V c t (ValueIdx.ix2 p l) = farr1 V c (ValueIdx.ix2 P L) := by
  obtain ⟨e0, e1, -⟩ := idx_facts1 t
  unfold fblk1 farr1 iblk1
  rw [View.read_apply]
  show V c main_v9 _ = V c main_v9 _
  refine congrArg (V c main_v9) (funext fun a => Fin.ext ?_)
  match a with
  | ⟨0, _⟩ => show win1_0.index t (0 : Fin 2) * 2048 + 1 * p.val = P.val; rw [e0, hP]; omega
  | ⟨1, _⟩ => show win1_0.index t (1 : Fin 2) * 2048 + 1 * l.val = L.val; rw [e1, hL]; omega

theorem zblk1_apply (c : Dev nD) (t : Fin cfg1.N) (l : Fin 2048) (q : Fin 256) (L : Fin 4096)
    (hL : L.val = 2048 * (t.val % 2) + l.val) :
    zblk1 V c t (ValueIdx.ix2 l q) = zarr1 V c (ValueIdx.ix2 L q) := by
  obtain ⟨-, -, e0, e1, -⟩ := idx_facts1 t
  unfold zblk1 zarr1 iblk1
  rw [View.read_apply]
  show V c main_v11 _ = V c main_v11 _
  refine congrArg (V c main_v11) (funext fun a => Fin.ext ?_)
  match a with
  | ⟨0, _⟩ => show win1_1.index t (0 : Fin 2) * 2048 + 1 * l.val = L.val; rw [e0, hL]; omega
  | ⟨1, _⟩ => show win1_1.index t (1 : Fin 2) * 256 + 1 * q.val = q.val; rw [e1]; omega

theorem bblk1_apply (c : Dev nD) (t : Fin cfg1.N) (q : Fin 256) :
    bblk1 V c t (ValueIdx.ix2 0 q) = barr1 V c (ValueIdx.ix2 0 q) := by
  obtain ⟨-, -, -, -, e0, e1, -⟩ := idx_facts1 t
  unfold bblk1 barr1 iblk1
  rw [View.read_apply]
  show V c main_v12 _ = V c main_v12 _
  refine congrArg (V c main_v12) (funext fun a => Fin.ext ?_)
  match a with
  | ⟨0, _⟩ => show win1_2.index t (0 : Fin 2) * 1 + 1 * 0 = 0; rw [e0]
  | ⟨1, _⟩ => show win1_2.index t (1 : Fin 2) * 256 + 1 * q.val = q.val; rw [e1]; omega

end Points

section Value

open ValueIdx

variable (V : (c : Dev nD) → (b : Ref sig .tc) → Buf (Elt Ideal) ((c : Thread nD τ).loc b))

theorem sum_two_runs1 (C n : ℕ) (hn : n = 2 * C) (f : ℕ → EReal) :
    (0 + ∑ l : Fin C, f l.val) + ∑ l : Fin C, f (C + l.val) = ∑ L : Fin n, f L.val := by
  rw [Cert.Lib.sum_eq_sum_runs 2 C n hn f, Fin.sum_univ_two, zero_add]
  congr 1
  · exact Finset.sum_congr rfl fun l _ => by rw [Fin.val_zero, Nat.zero_mul, Nat.zero_add]
  · exact Finset.sum_congr rfl fun l _ => by rw [Fin.val_one, Nat.one_mul]

def G1 (A : Vec Ideal S4096x4096 .bf16) (Z : Vec Ideal S4096x256 .bf16) (b : Vec Ideal S1x256 .f32) : Vec Ideal S4096x256 .f32 :=
  fun idx => post1 (Cert.Spec.conv (Cert.Spec.mat A) (Cert.Spec.mat Z) (fun j => b (ix2 0 j)) (idx 0) (idx 1))

theorem G1_apply (A : Vec Ideal S4096x4096 .bf16) (Z : Vec Ideal S4096x256 .bf16) (b : Vec Ideal S1x256 .f32) (P : Fin 4096) (q : Fin 256) :
    (G1 A Z b (ix2 P q) : EReal) = post1 ((∑ L : Fin 4096, (A (ix2 P L) : EReal) * (Z (ix2 L q) : EReal)) + (b (ix2 0 q) : EReal)) := rfl

/-- Entry by entry the two runs of 2048 products are the whole row of 4096 products: a sum regrouped, nothing distributed. -/
theorem out1_closed (c : Dev nD) (t : Fin cfg1.N) (h1 : t.val % 2 = 1) (p : Fin 2048) (q : Fin 256) (P : Fin 4096)
    (hP : P.val = 2048 * (t.val / 2) + p.val) :
    ((outsAt1 V c t.val t.isLt).1 (ix2 p q) : EReal) = G1 (farr1 V c) (zarr1 V c) (barr1 V c) (ix2 P q) := by
  have h0 : ¬t.val % 2 = 0 := by omega
  have hp2 : (prev1 t).val / 2 = t.val / 2 := by show (t.val - 1) / 2 = t.val / 2; omega
  have hp0 : (prev1 t).val % 2 = 0 := by show (t.val - 1) % 2 = 0; omega
  rw [out1_odd V c t h0, G1_apply]
  refine (pay3_apply1 _ (bblk1 V c t) p q).trans ?_
  refine congrArg post1 ?_
  rw [bblk1_apply V c t q]
  refine congrArg (fun s : EReal => s + (barr1 V c (ix2 0 q) : EReal)) ?_
  refine (step_apply1 (fblk1 V c t) (zblk1 V c t) _ p q).trans ?_
  rw [step_apply1 (fblk1 V c (prev1 t)) (zblk1 V c (prev1 t)) (k1_pay1 (F := Ideal)) p q, zero_apply1 p q]
  let f : ℕ → EReal := fun n =>
    if h : n < 4096 then (farr1 V c (ix2 P ⟨n, h⟩) : EReal) * (zarr1 V c (ix2 ⟨n, h⟩ q) : EReal) else 0
  have hA : ∀ l : Fin 2048, (fblk1 V c (prev1 t) (ix2 p l) : EReal) * (zblk1 V c (prev1 t) (ix2 l q) : EReal) = f l.val := fun l => by
    have hl : l.val < 4096 := by have := l.isLt; omega
    show _ = dite _ _ _
    rw [dif_pos hl, fblk1_apply V c (prev1 t) p l P ⟨l.val, hl⟩ (by rw [hp2]; exact hP) (by rw [hp0]; show l.val = 2048 * 0 + l.val; omega),
      zblk1_apply V c (prev1 t) l q ⟨l.val, hl⟩ (by rw [hp0]; show l.val = 2048 * 0 + l.val; omega)]
  have hB : ∀ l : Fin 2048, (fblk1 V c t (ix2 p l) : EReal) * (zblk1 V c t (ix2 l q) : EReal) = f (2048 + l.val) := fun l => by
    have hl : 2048 + l.val < 4096 := by have := l.isLt; omega
    show _ = dite _ _ _
    rw [dif_pos hl, fblk1_apply V c t p l P ⟨2048 + l.val, hl⟩ hP (by rw [h1]), zblk1_apply V c t l q ⟨2048 + l.val, hl⟩ (by rw [h1])]
  have hC : ∀ L : Fin 4096, (farr1 V c (ix2 P L) : EReal) * (zarr1 V c (ix2 L q) : EReal) = f L.val := fun L => by
    show _ = dite _ _ _
    rw [dif_pos L.isLt]
  rw [Fintype.sum_congr _ _ hA, Fintype.sum_congr _ _ hB, Fintype.sum_congr _ _ hC]
  exact sum_two_runs1 2048 4096 rfl f

theorem flushed1_eq (c : Dev nD) (t : Fin cfg1.N) (hf : (cfg1.win 3).flush t = true) :
    (dat1 V c).flushed 3 t = ((cfg1.win 3).blk t).view.read (Elt Ideal) (G1 (farr1 V c) (zarr1 V c) (barr1 V c)) := by
  have h1 : t.val % 2 = 1 := (flush1_3 t).mp hf
  obtain ⟨-, -, -, -, -, -, e0, e1⟩ := idx_facts1 t
  have hN : cfg1.N = 4 := N_1
  have ht := t.isLt
  show (cfg1.win 3).cut (grid1.coords t) ((dat1 V c).after 3 t) = _
  rw [after1_3]
  funext j
  have hj0 : (j 0).val < 2048 := (j 0).isLt
  have hj1 : (j 1).val < 256 := (j 1).isLt
  have hP : 2048 * (t.val / 2) + (j 0).val < 4096 := by omega
  refine Eq.trans (b := (outsAt1 V c t.val t.isLt).1 (ix2 ⟨(j 0).val, hj0⟩ ⟨(j 1).val, hj1⟩)) ?_ ?_
  · exact congrArg (outsAt1 V c t.val t.isLt).1 (funext fun a => Fin.ext (by
      match a with
      | ⟨0, _⟩ => rfl
      | ⟨1, _⟩ => rfl))
  · refine (out1_closed V c t h1 ⟨(j 0).val, hj0⟩ ⟨(j 1).val, hj1⟩ ⟨2048 * (t.val / 2) + (j 0).val, hP⟩ rfl).trans ?_
    show G1 (farr1 V c) (zarr1 V c) (barr1 V c) _ = G1 (farr1 V c) (zarr1 V c) (barr1 V c) (((cfg1.win 3).blk t).view.emb j)
    refine congrArg (G1 (farr1 V c) (zarr1 V c) (barr1 V c)) (funext fun a => Fin.ext ?_)
    match a with
    | ⟨0, _⟩ => show 2048 * (t.val / 2) + (j 0).val = win1_3.index t (0 : Fin 2) * 2048 + 1 * (j 0).val; rw [e0]; omega
    | ⟨1, _⟩ => show (j 1).val = win1_3.index t (1 : Fin 2) * 256 + 1 * (j 1).val; rw [e1]; omega

theorem mem_blk1 (t : Fin cfg1.N) (i : S4096x256.Idx) :
    i ∈ ((cfg1.win 3).blk t).view.set ↔ ∀ a : Fin 2, win1_3.index t a * S2048x256.size a ≤ (i a).val ∧ (i a).val < win1_3.index t a * S2048x256.size a + S2048x256.size a := by
  show i ∈ ((View.whole main_v13).slice (win1_3.rect t)).set ↔ _
  rw [View.set_slice_whole, Rect.mem_set_unit]
  exact Iff.rfl

theorem cover1 (i : S4096x256.Idx) : ∃ t : Fin cfg1.N, (cfg1.win 3).flush t = true ∧ i ∈ ((cfg1.win 3).blk t).view.set := by
  have hi0 : (i 0).val < 4096 := (i 0).isLt
  have hi1 : (i 1).val < 256 := (i 1).isLt
  have hN : cfg1.N = 4 := N_1
  obtain ⟨t, ht⟩ : ∃ t : Fin cfg1.N, t.val = 2 * ((i 0).val / 2048) + 1 := ⟨⟨2 * ((i 0).val / 2048) + 1, by rw [hN]; omega⟩, rfl⟩
  obtain ⟨-, -, -, -, -, -, e0, e1⟩ := idx_facts1 t
  refine ⟨t, (flush1_3 t).mpr (by rw [ht]; omega), ?_⟩
  rw [mem_blk1]
  intro a
  match a with
  | ⟨0, _⟩ => show win1_3.index t (0 : Fin 2) * 2048 ≤ (i 0).val ∧ (i 0).val < win1_3.index t (0 : Fin 2) * 2048 + 2048; rw [e0, ht]; omega
  | ⟨1, _⟩ => show win1_3.index t (1 : Fin 2) * 256 ≤ (i 1).val ∧ (i 1).val < win1_3.index t (1 : Fin 2) * 256 + 256; rw [e1]; omega

/-- The call's value: the blocks written back are the blocks of one function of the three arrays, and they cover the output array. -/
theorem final1 (c : Dev nD) :
    (dat1 (F := Ideal) V c).arrAt 3 cfg1.N
      = fun idx => post1 (Cert.Spec.conv (Cert.Spec.mat (V c main_v9)) (Cert.Spec.mat (V c main_v11)) (fun j => V c main_v12 (ValueIdx.ix2 0 j)) (idx 0) (idx 1)) :=
  (dat1 V c).arrAt_eq_of_cover 3 (G1 (farr1 V c) (zarr1 V c) (barr1 V c)) (flushed1_eq V c) cover1

end Value

end Cert.KernelIdeal.Hand

end
-- ==== Proof.HandIdeal.R2Post.lean ====
import proofs.«123138_j12206297055730_1_alg».proof.Proof.HandIdeal.R2Frame
import proofs.«123138_j12206297055730_1_alg».proof.Proof.Spec
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.ValueIdx

def post2 (x : EReal) : EReal := max x Cert.Spec.zeroW

theorem pay3_apply2 (acc : Vec Ideal S2048x256 .f32) (b : Vec Ideal S1x256 .f32) (p : Fin 2048) (q : Fin 256) :
    (k2_pay3 acc b (ix2 p q) : EReal) = post2 ((acc (ix2 p q) : EReal) + (b (ix2 0 q) : EReal)) := by
  unfold k2_pay3 post2
  simp only [shapeCast_self]
  refine (maximumf_apply _ _ _).trans ?_
  refine congrArg (fun s : EReal => max s Cert.Spec.zeroW) ?_
  refine (addf_apply _ _ _).trans ?_
  refine congrArg (fun s : EReal => (acc (ix2 p q) : EReal) + s) ?_
  exact broadcastTo_apply b broadcasts_S1x256_S2048x256 (ix2 p q) (ix2 0 q) (fun a => by
    match a with
    | ⟨0, _⟩ => rfl
    | ⟨1, _⟩ => rfl)

end Cert.KernelIdeal.Hand

end
-- ==== Proof.HandIdeal.R2Value.lean ====
import proofs.«123138_j12206297055730_1_alg».proof.Proof.HandIdeal.R2Post
import proofs.«123138_j12206297055730_1_alg».proof.Proof.LibDotSum
import proofs.«123138_j12206297055730_1_alg».proof.Proof.LibRunSums
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open scoped BigOperators

section Pieces

variable {F : FTy → Type} [FloatOps F]
variable (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)
  (x0 : Vec F S2048x2048 .bf16) (x1 : Vec F S2048x256 .bf16) (x2 : Vec F S1x256 .f32) (xs0 : Vec F S2048x256 .f32)

theorem hz2 : (![0, 0] : Fin 2 → Nat) = fun _ => 0 := funext fun a => by fin_cases a <;> rfl

/-- Where the block is stored the accumulator is left at the product of the two staged blocks added to what it held. -/
theorem accB2_eq (hc0 : ¬cond2_0 i) (hc1 : cond2_1 i) :
    rd2 (kernelRun2_B c i arg2 harg2 arg3 harg3 arg4 harg4 arg5 harg5 arg6 harg6 hc0 hc1 x0 x1 x2 xs0).2.1 = k2_pay2 x0 x1 xs0 := by
  unfold rd2
  rw [View.read_writes_eq_canon _ _ _ (scover2_B _ _ _ _ _ _ _ _ _ _ _ _ _ _ _ _ _ _)]
  unfold kernelRun2_B
  dsimp only
  sl_unfold_words
  rw [View.canon_unit_zero hz2]
  simp only [View.readAt_eq_ld, harg2.read_unread, harg3.read_unread, harg6.read_unread, View.ld_unit_zero (S := S2048x2048) hz2, View.ld_unit_zero (S := S2048x256) hz2]

/-- And the output's buffer at the epilogue of the accumulator as the same run has just left it. -/
theorem outB2_eq (hc0 : ¬cond2_0 i) (hc1 : cond2_1 i) :
    rd2 (kernelRun2_B c i arg2 harg2 arg3 harg3 arg4 harg4 arg5 harg5 arg6 harg6 hc0 hc1 x0 x1 x2 xs0).1 = k2_pay3 (k2_pay2 x0 x1 xs0) x2 := by
  unfold rd2
  rw [View.read_writes_eq_canon _ _ _ (cover2_B _ _ _ _ _ _ _ _ _ _ _ _ _ _ _ _ _ _)]
  unfold kernelRun2_B
  dsimp only
  sl_unfold_words
  rw [View.canon_unit_zero hz2]
  simp only [View.readAt_eq_ld, harg2.read_unread, harg3.read_unread, harg4.read_unread, harg6.read_unread, View.ld_unit_zero (S := S2048x2048) hz2, View.ld_unit_zero (S := S2048x256) hz2, View.ld_unit_zero (S := S1x256) hz2, View.readCov_unit_zero (S := S2048x256) _ hz2]

/-- Where the accumulator is reset it is left at the product of the two staged blocks added to the zero block. -/
theorem accA2_eq (hc0 : cond2_0 i) (hc1 : ¬cond2_1 i) :
    rd2 (kernelRun2_A c i arg2 harg2 arg3 harg3 arg4 harg4 arg5 harg5 arg6 harg6 hc0 hc1 x0 x1 x2).2.1 = k2_pay2 x0 x1 (k2_pay1 (F := F)) := by
  unfold rd2
  rw [View.read_writes_eq_canon _ _ _ (scover2_A _ _ _ _ _ _ _ _ _ _ _ _ _ _ _ _ _)]
  unfold kernelRun2_A
  dsimp only
  sl_unfold_words
  rw [View.canon_cons_unit_zero (S := S2048x256) hz2, View.readCov_unit_zero (S := S2048x256) _ hz2]
  simp only [View.readAt_eq_ld, harg2.read_unread, harg3.read_unread, View.ld_unit_zero (S := S2048x2048) hz2, View.ld_unit_zero (S := S2048x256) hz2]

end Pieces

section AtIndex

open ValueIdx

theorem zero_apply2 (p : Fin 2048) (q : Fin 256) : (k2_pay1 (F := Ideal) (ix2 p q) : EReal) = 0 := by
  unfold k2_pay1
  simp only [shapeCast_self]
  exact Ideal.ofBits_zero_f32

theorem step_apply2 (x0 : Vec Ideal S2048x2048 .bf16) (x1 : Vec Ideal S2048x256 .bf16) (acc : Vec Ideal S2048x256 .f32) (p : Fin 2048) (q : Fin 256) :
    (k2_pay2 x0 x1 acc (ix2 p q) : EReal) = (acc (ix2 p q) : EReal) + ∑ l : Fin 2048, (x0 (ix2 p l) : EReal) * (x1 (ix2 l q) : EReal) := by
  unfold k2_pay2
  simp only [shapeCast_self]
  refine (addf_apply _ _ _).trans ?_
  exact congrArg (fun s : EReal => (acc (ix2 p q) : EReal) + s)
    (Cert.Lib.matmul_rc_apply dot_S2048x2048_S2048x256_S2048x256_1_0_0_1_n_n rfl rfl rfl rfl rfl rfl none x0 x1 p q)

end AtIndex

section Points

variable {F : FTy → Type} [FloatOps F]
variable (V : (c : Dev nD) → (b : Ref sig .tc) → Buf (Elt F) ((c : Thread nD τ).loc b))

abbrev fblk2 (c : Dev nD) (t : Fin cfg2.N) : Vec F S2048x2048 .bf16 := iblk2 V c 0 t
abbrev zblk2 (c : Dev nD) (t : Fin cfg2.N) : Vec F S2048x256 .bf16 := iblk2 V c 1 t
abbrev bblk2 (c : Dev nD) (t : Fin cfg2.N) : Vec F S1x256 .f32 := iblk2 V c 2 t
abbrev farr2 (c : Dev nD) : Vec F S4096x4096 .bf16 := V c main_v9
abbrev zarr2 (c : Dev nD) : Vec F S4096x256 .bf16 := V c main_v15
abbrev barr2 (c : Dev nD) : Vec F S1x256 .f32 := V c main_v16

abbrev prev2 (t : Fin cfg2.N) : Fin cfg2.N := ⟨t.val - 1, Nat.lt_of_le_of_lt (Nat.sub_le _ _) t.isLt⟩

theorem acc2_even (c : Dev nD) (t : Fin cfg2.N) (h0 : t.val % 2 = 0) :
    (outsAt2 V c t.val t.isLt).2 = k2_pay2 (fblk2 V c t) (zblk2 V c t) (k2_pay1 (F := F)) := by
  rw [outsAt2_A V c t h0]
  dsimp only
  exact accA2_eq c (grid2.coords t) (ms2_0 t) (hs2_0 t) (ms2_1 t) (hs2_1 t) (ms2_2 t) (hs2_2 t) (ms2_3 t) (hs2_3 t) scM2_0 (Memref.isWhole_whole _) (iblk2 V c 0 t) (iblk2 V c 1 t) (iblk2 V c 2 t) _ _

/-- After an odd point the output's buffer holds the epilogue of the two products added in the points' order. -/
theorem out2_odd (c : Dev nD) (t : Fin cfg2.N) (h0 : ¬t.val % 2 = 0) :
    (outsAt2 V c t.val t.isLt).1
      = k2_pay3 (k2_pay2 (fblk2 V c t) (zblk2 V c t) (k2_pay2 (fblk2 V c (prev2 t)) (zblk2 V c (prev2 t)) (k2_pay1 (F := F)))) (bblk2 V c t) := by
  rw [outsAt2_B V c t h0]
  dsimp only
  refine (outB2_eq c (grid2.coords t) (ms2_0 t) (hs2_0 t) (ms2_1 t) (hs2_1 t) (ms2_2 t) (hs2_2 t) (ms2_3 t) (hs2_3 t) scM2_0 (Memref.isWhole_whole _) (iblk2 V c 0 t) (iblk2 V c 1 t) (iblk2 V c 2 t) (accBefore2 V c t) _ _).trans ?_
  rw [show accBefore2 V c t = _ from acc2_even V c (prev2 t) (by show (t.val - 1) % 2 = 0; omega)]

theorem idx_facts2 : ∀ t : Fin cfg2.N,
    win2_0.index t (0 : Fin 2) = t.val / 2 ∧ win2_0.index t (1 : Fin 2) = t.val % 2
    ∧ win2_1.index t (0 : Fin 2) = t.val % 2 ∧ win2_1.index t (1 : Fin 2) = 0
    ∧ win2_2.index t (0 : Fin 2) = 0 ∧ win2_2.index t (1 : Fin 2) = 0
    ∧ win2_3.index t (0 : Fin 2) = t.val / 2 ∧ win2_3.index t (1 : Fin 2) = 0 :=
  (by decide +kernel : ∀ t : Fin grid2.N, _)

theorem fblk2_apply (c : Dev nD) (t : Fin cfg2.N) (p l : Fin 2048) (P L : Fin 4096)
    (hP : P.val = 2048 * (t.val / 2) + p.val) (hL : L.val = 2048 * (t.val % 2) + l.val) :
    fblk2 V c t (ValueIdx.ix2 p l) = farr2 V c (ValueIdx.ix2 P L) := by
  obtain ⟨e0, e1, -⟩ := idx_facts2 t
  unfold fblk2 farr2 iblk2
  rw [View.read_apply]
  show V c main_v9 _ = V c main_v9 _
  refine congrArg (V c main_v9) (funext fun a => Fin.ext ?_)
  match a with
  | ⟨0, _⟩ => show win2_0.index t (0 : Fin 2) * 2048 + 1 * p.val = P.val; rw [e0, hP]; omega
  | ⟨1, _⟩ => show win2_0.index t (1 : Fin 2) * 2048 + 1 * l.val = L.val; rw [e1, hL]; omega

theorem zblk2_apply (c : Dev nD) (t : Fin cfg2.N) (l : Fin 2048) (q : Fin 256) (L : Fin 4096)
    (hL : L.val = 2048 * (t.val % 2) + l.val) :
    zblk2 V c t (ValueIdx.ix2 l q) = zarr2 V c (ValueIdx.ix2 L q) := by
  obtain ⟨-, -, e0, e1, -⟩ := idx_facts2 t
  unfold zblk2 zarr2 iblk2
  rw [View.read_apply]
  show V c main_v15 _ = V c main_v15 _
  refine congrArg (V c main_v15) (funext fun a => Fin.ext ?_)
  match a with
  | ⟨0, _⟩ => show win2_1.index t (0 : Fin 2) * 2048 + 1 * l.val = L.val; rw [e0, hL]; omega
  | ⟨1, _⟩ => show win2_1.index t (1 : Fin 2) * 256 + 1 * q.val = q.val; rw [e1]; omega

theorem bblk2_apply (c : Dev nD) (t : Fin cfg2.N) (q : Fin 256) :
    bblk2 V c t (ValueIdx.ix2 0 q) = barr2 V c (ValueIdx.ix2 0 q) := by
  obtain ⟨-, -, -, -, e0, e1, -⟩ := idx_facts2 t
  unfold bblk2 barr2 iblk2
  rw [View.read_apply]
  show V c main_v16 _ = V c main_v16 _
  refine congrArg (V c main_v16) (funext fun a => Fin.ext ?_)
  match a with
  | ⟨0, _⟩ => show win2_2.index t (0 : Fin 2) * 1 + 1 * 0 = 0; rw [e0]
  | ⟨1, _⟩ => show win2_2.index t (1 : Fin 2) * 256 + 1 * q.val = q.val; rw [e1]; omega

end Points

section Value

open ValueIdx

variable (V : (c : Dev nD) → (b : Ref sig .tc) → Buf (Elt Ideal) ((c : Thread nD τ).loc b))

theorem sum_two_runs2 (C n : ℕ) (hn : n = 2 * C) (f : ℕ → EReal) :
    (0 + ∑ l : Fin C, f l.val) + ∑ l : Fin C, f (C + l.val) = ∑ L : Fin n, f L.val := by
  rw [Cert.Lib.sum_eq_sum_runs 2 C n hn f, Fin.sum_univ_two, zero_add]
  congr 1
  · exact Finset.sum_congr rfl fun l _ => by rw [Fin.val_zero, Nat.zero_mul, Nat.zero_add]
  · exact Finset.sum_congr rfl fun l _ => by rw [Fin.val_one, Nat.one_mul]

def G2 (A : Vec Ideal S4096x4096 .bf16) (Z : Vec Ideal S4096x256 .bf16) (b : Vec Ideal S1x256 .f32) : Vec Ideal S4096x256 .f32 :=
  fun idx => post2 (Cert.Spec.conv (Cert.Spec.mat A) (Cert.Spec.mat Z) (fun j => b (ix2 0 j)) (idx 0) (idx 1))

theorem G2_apply (A : Vec Ideal S4096x4096 .bf16) (Z : Vec Ideal S4096x256 .bf16) (b : Vec Ideal S1x256 .f32) (P : Fin 4096) (q : Fin 256) :
    (G2 A Z b (ix2 P q) : EReal) = post2 ((∑ L : Fin 4096, (A (ix2 P L) : EReal) * (Z (ix2 L q) : EReal)) + (b (ix2 0 q) : EReal)) := rfl

/-- Entry by entry the two runs of 2048 products are the whole row of 4096 products: a sum regrouped, nothing distributed. -/
theorem out2_closed (c : Dev nD) (t : Fin cfg2.N) (h1 : t.val % 2 = 1) (p : Fin 2048) (q : Fin 256) (P : Fin 4096)
    (hP : P.val = 2048 * (t.val / 2) + p.val) :
    ((outsAt2 V c t.val t.isLt).1 (ix2 p q) : EReal) = G2 (farr2 V c) (zarr2 V c) (barr2 V c) (ix2 P q) := by
  have h0 : ¬t.val % 2 = 0 := by omega
  have hp2 : (prev2 t).val / 2 = t.val / 2 := by show (t.val - 1) / 2 = t.val / 2; omega
  have hp0 : (prev2 t).val % 2 = 0 := by show (t.val - 1) % 2 = 0; omega
  rw [out2_odd V c t h0, G2_apply]
  refine (pay3_apply2 _ (bblk2 V c t) p q).trans ?_
  refine congrArg post2 ?_
  rw [bblk2_apply V c t q]
  refine congrArg (fun s : EReal => s + (barr2 V c (ix2 0 q) : EReal)) ?_
  refine (step_apply2 (fblk2 V c t) (zblk2 V c t) _ p q).trans ?_
  rw [step_apply2 (fblk2 V c (prev2 t)) (zblk2 V c (prev2 t)) (k2_pay1 (F := Ideal)) p q, zero_apply2 p q]
  let f : ℕ → EReal := fun n =>
    if h : n < 4096 then (farr2 V c (ix2 P ⟨n, h⟩) : EReal) * (zarr2 V c (ix2 ⟨n, h⟩ q) : EReal) else 0
  have hA : ∀ l : Fin 2048, (fblk2 V c (prev2 t) (ix2 p l) : EReal) * (zblk2 V c (prev2 t) (ix2 l q) : EReal) = f l.val := fun l => by
    have hl : l.val < 4096 := by have := l.isLt; omega
    show _ = dite _ _ _
    rw [dif_pos hl, fblk2_apply V c (prev2 t) p l P ⟨l.val, hl⟩ (by rw [hp2]; exact hP) (by rw [hp0]; show l.val = 2048 * 0 + l.val; omega),
      zblk2_apply V c (prev2 t) l q ⟨l.val, hl⟩ (by rw [hp0]; show l.val = 2048 * 0 + l.val; omega)]
  have hB : ∀ l : Fin 2048, (fblk2 V c t (ix2 p l) : EReal) * (zblk2 V c t (ix2 l q) : EReal) = f (2048 + l.val) := fun l => by
    have hl : 2048 + l.val < 4096 := by have := l.isLt; omega
    show _ = dite _ _ _
    rw [dif_pos hl, fblk2_apply V c t p l P ⟨2048 + l.val, hl⟩ hP (by rw [h1]), zblk2_apply V c t l q ⟨2048 + l.val, hl⟩ (by rw [h1])]
  have hC : ∀ L : Fin 4096, (farr2 V c (ix2 P L) : EReal) * (zarr2 V c (ix2 L q) : EReal) = f L.val := fun L => by
    show _ = dite _ _ _
    rw [dif_pos L.isLt]
  rw [Fintype.sum_congr _ _ hA, Fintype.sum_congr _ _ hB, Fintype.sum_congr _ _ hC]
  exact sum_two_runs2 2048 4096 rfl f

theorem flushed2_eq (c : Dev nD) (t : Fin cfg2.N) (hf : (cfg2.win 3).flush t = true) :
    (dat2 V c).flushed 3 t = ((cfg2.win 3).blk t).view.read (Elt Ideal) (G2 (farr2 V c) (zarr2 V c) (barr2 V c)) := by
  have h1 : t.val % 2 = 1 := (flush2_3 t).mp hf
  obtain ⟨-, -, -, -, -, -, e0, e1⟩ := idx_facts2 t
  have hN : cfg2.N = 4 := N_2
  have ht := t.isLt
  show (cfg2.win 3).cut (grid2.coords t) ((dat2 V c).after 3 t) = _
  rw [after2_3]
  funext j
  have hj0 : (j 0).val < 2048 := (j 0).isLt
  have hj1 : (j 1).val < 256 := (j 1).isLt
  have hP : 2048 * (t.val / 2) + (j 0).val < 4096 := by omega
  refine Eq.trans (b := (outsAt2 V c t.val t.isLt).1 (ix2 ⟨(j 0).val, hj0⟩ ⟨(j 1).val, hj1⟩)) ?_ ?_
  · exact congrArg (outsAt2 V c t.val t.isLt).1 (funext fun a => Fin.ext (by
      match a with
      | ⟨0, _⟩ => rfl
      | ⟨1, _⟩ => rfl))
  · refine (out2_closed V c t h1 ⟨(j 0).val, hj0⟩ ⟨(j 1).val, hj1⟩ ⟨2048 * (t.val / 2) + (j 0).val, hP⟩ rfl).trans ?_
    show G2 (farr2 V c) (zarr2 V c) (barr2 V c) _ = G2 (farr2 V c) (zarr2 V c) (barr2 V c) (((cfg2.win 3).blk t).view.emb j)
    refine congrArg (G2 (farr2 V c) (zarr2 V c) (barr2 V c)) (funext fun a => Fin.ext ?_)
    match a with
    | ⟨0, _⟩ => show 2048 * (t.val / 2) + (j 0).val = win2_3.index t (0 : Fin 2) * 2048 + 1 * (j 0).val; rw [e0]; omega
    | ⟨1, _⟩ => show (j 1).val = win2_3.index t (1 : Fin 2) * 256 + 1 * (j 1).val; rw [e1]; omega

theorem mem_blk2 (t : Fin cfg2.N) (i : S4096x256.Idx) :
    i ∈ ((cfg2.win 3).blk t).view.set ↔ ∀ a : Fin 2, win2_3.index t a * S2048x256.size a ≤ (i a).val ∧ (i a).val < win2_3.index t a * S2048x256.size a + S2048x256.size a := by
  show i ∈ ((View.whole main_v17).slice (win2_3.rect t)).set ↔ _
  rw [View.set_slice_whole, Rect.mem_set_unit]
  exact Iff.rfl

theorem cover2 (i : S4096x256.Idx) : ∃ t : Fin cfg2.N, (cfg2.win 3).flush t = true ∧ i ∈ ((cfg2.win 3).blk t).view.set := by
  have hi0 : (i 0).val < 4096 := (i 0).isLt
  have hi1 : (i 1).val < 256 := (i 1).isLt
  have hN : cfg2.N = 4 := N_2
  obtain ⟨t, ht⟩ : ∃ t : Fin cfg2.N, t.val = 2 * ((i 0).val / 2048) + 1 := ⟨⟨2 * ((i 0).val / 2048) + 1, by rw [hN]; omega⟩, rfl⟩
  obtain ⟨-, -, -, -, -, -, e0, e1⟩ := idx_facts2 t
  refine ⟨t, (flush2_3 t).mpr (by rw [ht]; omega), ?_⟩
  rw [mem_blk2]
  intro a
  match a with
  | ⟨0, _⟩ => show win2_3.index t (0 : Fin 2) * 2048 ≤ (i 0).val ∧ (i 0).val < win2_3.index t (0 : Fin 2) * 2048 + 2048; rw [e0, ht]; omega
  | ⟨1, _⟩ => show win2_3.index t (1 : Fin 2) * 256 ≤ (i 1).val ∧ (i 1).val < win2_3.index t (1 : Fin 2) * 256 + 256; rw [e1]; omega

/-- The call's value: the blocks written back are the blocks of one function of the three arrays, and they cover the output array. -/
theorem final2 (c : Dev nD) :
    (dat2 (F := Ideal) V c).arrAt 3 cfg2.N
      = fun idx => post2 (Cert.Spec.conv (Cert.Spec.mat (V c main_v9)) (Cert.Spec.mat (V c main_v15)) (fun j => V c main_v16 (ValueIdx.ix2 0 j)) (idx 0) (idx 1)) :=
  (dat2 V c).arrAt_eq_of_cover 3 (G2 (farr2 V c) (zarr2 V c) (barr2 V c)) (flushed2_eq V c) cover2

end Value

end Cert.KernelIdeal.Hand

end
-- ==== Proof.HandIdeal.R3Post.lean ====
import proofs.«123138_j12206297055730_1_alg».proof.Proof.HandIdeal.R3Frame
import proofs.«123138_j12206297055730_1_alg».proof.Proof.Spec
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.ValueIdx

def post3 (x : EReal) : EReal := x

theorem pay3_apply3 (acc : Vec Ideal S2048x256 .f32) (b : Vec Ideal S1x256 .f32) (p : Fin 2048) (q : Fin 256) :
    (k3_pay3 acc b (ix2 p q) : EReal) = post3 ((acc (ix2 p q) : EReal) + (b (ix2 0 q) : EReal)) := by
  unfold k3_pay3 post3
  simp only [shapeCast_self]
  refine (addf_apply _ _ _).trans ?_
  refine congrArg (fun s : EReal => (acc (ix2 p q) : EReal) + s) ?_
  exact broadcastTo_apply b broadcasts_S1x256_S2048x256 (ix2 p q) (ix2 0 q) (fun a => by
    match a with
    | ⟨0, _⟩ => rfl
    | ⟨1, _⟩ => rfl)

end Cert.KernelIdeal.Hand

end
-- ==== Proof.HandIdeal.R3Value.lean ====
import proofs.«123138_j12206297055730_1_alg».proof.Proof.HandIdeal.R3Post
import proofs.«123138_j12206297055730_1_alg».proof.Proof.LibDotSum
import proofs.«123138_j12206297055730_1_alg».proof.Proof.LibRunSums
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open scoped BigOperators

section Pieces

variable {F : FTy → Type} [FloatOps F]
variable (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole)
  (x0 : Vec F S2048x2048 .bf16) (x1 : Vec F S2048x256 .bf16) (x2 : Vec F S1x256 .f32) (xs0 : Vec F S2048x256 .f32)

theorem hz3 : (![0, 0] : Fin 2 → Nat) = fun _ => 0 := funext fun a => by fin_cases a <;> rfl

/-- Where the block is stored the accumulator is left at the product of the two staged blocks added to what it held. -/
theorem accB3_eq (hc0 : ¬cond3_0 i) (hc1 : cond3_1 i) :
    rd3 (kernelRun3_B c i arg2 harg2 arg3 harg3 arg4 harg4 arg5 harg5 arg6 harg6 hc0 hc1 x0 x1 x2 xs0).2.1 = k3_pay2 x0 x1 xs0 := by
  unfold rd3
  rw [View.read_writes_eq_canon _ _ _ (scover3_B _ _ _ _ _ _ _ _ _ _ _ _ _ _ _ _ _ _)]
  unfold kernelRun3_B
  dsimp only
  sl_unfold_words
  rw [View.canon_unit_zero hz3]
  simp only [View.readAt_eq_ld, harg2.read_unread, harg3.read_unread, harg6.read_unread, View.ld_unit_zero (S := S2048x2048) hz3, View.ld_unit_zero (S := S2048x256) hz3]

/-- And the output's buffer at the epilogue of the accumulator as the same run has just left it. -/
theorem outB3_eq (hc0 : ¬cond3_0 i) (hc1 : cond3_1 i) :
    rd3 (kernelRun3_B c i arg2 harg2 arg3 harg3 arg4 harg4 arg5 harg5 arg6 harg6 hc0 hc1 x0 x1 x2 xs0).1 = k3_pay3 (k3_pay2 x0 x1 xs0) x2 := by
  unfold rd3
  rw [View.read_writes_eq_canon _ _ _ (cover3_B _ _ _ _ _ _ _ _ _ _ _ _ _ _ _ _ _ _)]
  unfold kernelRun3_B
  dsimp only
  sl_unfold_words
  rw [View.canon_unit_zero hz3]
  simp only [View.readAt_eq_ld, harg2.read_unread, harg3.read_unread, harg4.read_unread, harg6.read_unread, View.ld_unit_zero (S := S2048x2048) hz3, View.ld_unit_zero (S := S2048x256) hz3, View.ld_unit_zero (S := S1x256) hz3, View.readCov_unit_zero (S := S2048x256) _ hz3]

/-- Where the accumulator is reset it is left at the product of the two staged blocks added to the zero block. -/
theorem accA3_eq (hc0 : cond3_0 i) (hc1 : ¬cond3_1 i) :
    rd3 (kernelRun3_A c i arg2 harg2 arg3 harg3 arg4 harg4 arg5 harg5 arg6 harg6 hc0 hc1 x0 x1 x2).2.1 = k3_pay2 x0 x1 (k3_pay1 (F := F)) := by
  unfold rd3
  rw [View.read_writes_eq_canon _ _ _ (scover3_A _ _ _ _ _ _ _ _ _ _ _ _ _ _ _ _ _)]
  unfold kernelRun3_A
  dsimp only
  sl_unfold_words
  rw [View.canon_cons_unit_zero (S := S2048x256) hz3, View.readCov_unit_zero (S := S2048x256) _ hz3]
  simp only [View.readAt_eq_ld, harg2.read_unread, harg3.read_unread, View.ld_unit_zero (S := S2048x2048) hz3, View.ld_unit_zero (S := S2048x256) hz3]

end Pieces

section AtIndex

open ValueIdx

theorem zero_apply3 (p : Fin 2048) (q : Fin 256) : (k3_pay1 (F := Ideal) (ix2 p q) : EReal) = 0 := by
  unfold k3_pay1
  simp only [shapeCast_self]
  exact Ideal.ofBits_zero_f32

theorem step_apply3 (x0 : Vec Ideal S2048x2048 .bf16) (x1 : Vec Ideal S2048x256 .bf16) (acc : Vec Ideal S2048x256 .f32) (p : Fin 2048) (q : Fin 256) :
    (k3_pay2 x0 x1 acc (ix2 p q) : EReal) = (acc (ix2 p q) : EReal) + ∑ l : Fin 2048, (x0 (ix2 p l) : EReal) * (x1 (ix2 l q) : EReal) := by
  unfold k3_pay2
  simp only [shapeCast_self]
  refine (addf_apply _ _ _).trans ?_
  exact congrArg (fun s : EReal => (acc (ix2 p q) : EReal) + s)
    (Cert.Lib.matmul_rc_apply dot_S2048x2048_S2048x256_S2048x256_1_0_0_1_n_n rfl rfl rfl rfl rfl rfl none x0 x1 p q)

end AtIndex

section Points

variable {F : FTy → Type} [FloatOps F]
variable (V : (c : Dev nD) → (b : Ref sig .tc) → Buf (Elt F) ((c : Thread nD τ).loc b))

abbrev fblk3 (c : Dev nD) (t : Fin cfg3.N) : Vec F S2048x2048 .bf16 := iblk3 V c 0 t
abbrev zblk3 (c : Dev nD) (t : Fin cfg3.N) : Vec F S2048x256 .bf16 := iblk3 V c 1 t
abbrev bblk3 (c : Dev nD) (t : Fin cfg3.N) : Vec F S1x256 .f32 := iblk3 V c 2 t
abbrev farr3 (c : Dev nD) : Vec F S4096x4096 .bf16 := V c main_v9
abbrev zarr3 (c : Dev nD) : Vec F S4096x256 .bf16 := V c main_v19
abbrev barr3 (c : Dev nD) : Vec F S1x256 .f32 := V c main_v20

abbrev prev3 (t : Fin cfg3.N) : Fin cfg3.N := ⟨t.val - 1, Nat.lt_of_le_of_lt (Nat.sub_le _ _) t.isLt⟩

theorem acc3_even (c : Dev nD) (t : Fin cfg3.N) (h0 : t.val % 2 = 0) :
    (outsAt3 V c t.val t.isLt).2 = k3_pay2 (fblk3 V c t) (zblk3 V c t) (k3_pay1 (F := F)) := by
  rw [outsAt3_A V c t h0]
  dsimp only
  exact accA3_eq c (grid3.coords t) (ms3_0 t) (hs3_0 t) (ms3_1 t) (hs3_1 t) (ms3_2 t) (hs3_2 t) (ms3_3 t) (hs3_3 t) scM3_0 (Memref.isWhole_whole _) (iblk3 V c 0 t) (iblk3 V c 1 t) (iblk3 V c 2 t) _ _

/-- After an odd point the output's buffer holds the epilogue of the two products added in the points' order. -/
theorem out3_odd (c : Dev nD) (t : Fin cfg3.N) (h0 : ¬t.val % 2 = 0) :
    (outsAt3 V c t.val t.isLt).1
      = k3_pay3 (k3_pay2 (fblk3 V c t) (zblk3 V c t) (k3_pay2 (fblk3 V c (prev3 t)) (zblk3 V c (prev3 t)) (k3_pay1 (F := F)))) (bblk3 V c t) := by
  rw [outsAt3_B V c t h0]
  dsimp only
  refine (outB3_eq c (grid3.coords t) (ms3_0 t) (hs3_0 t) (ms3_1 t) (hs3_1 t) (ms3_2 t) (hs3_2 t) (ms3_3 t) (hs3_3 t) scM3_0 (Memref.isWhole_whole _) (iblk3 V c 0 t) (iblk3 V c 1 t) (iblk3 V c 2 t) (accBefore3 V c t) _ _).trans ?_
  rw [show accBefore3 V c t = _ from acc3_even V c (prev3 t) (by show (t.val - 1) % 2 = 0; omega)]

theorem idx_facts3 : ∀ t : Fin cfg3.N,
    win3_0.index t (0 : Fin 2) = t.val / 2 ∧ win3_0.index t (1 : Fin 2) = t.val % 2
    ∧ win3_1.index t (0 : Fin 2) = t.val % 2 ∧ win3_1.index t (1 : Fin 2) = 0
    ∧ win3_2.index t (0 : Fin 2) = 0 ∧ win3_2.index t (1 : Fin 2) = 0
    ∧ win3_3.index t (0 : Fin 2) = t.val / 2 ∧ win3_3.index t (1 : Fin 2) = 0 :=
  (by decide +kernel : ∀ t : Fin grid3.N, _)

theorem fblk3_apply (c : Dev nD) (t : Fin cfg3.N) (p l : Fin 2048) (P L : Fin 4096)
    (hP : P.val = 2048 * (t.val / 2) + p.val) (hL : L.val = 2048 * (t.val % 2) + l.val) :
    fblk3 V c t (ValueIdx.ix2 p l) = farr3 V c (ValueIdx.ix2 P L) := by
  obtain ⟨e0, e1, -⟩ := idx_facts3 t
  unfold fblk3 farr3 iblk3
  rw [View.read_apply]
  show V c main_v9 _ = V c main_v9 _
  refine congrArg (V c main_v9) (funext fun a => Fin.ext ?_)
  match a with
  | ⟨0, _⟩ => show win3_0.index t (0 : Fin 2) * 2048 + 1 * p.val = P.val; rw [e0, hP]; omega
  | ⟨1, _⟩ => show win3_0.index t (1 : Fin 2) * 2048 + 1 * l.val = L.val; rw [e1, hL]; omega

theorem zblk3_apply (c : Dev nD) (t : Fin cfg3.N) (l : Fin 2048) (q : Fin 256) (L : Fin 4096)
    (hL : L.val = 2048 * (t.val % 2) + l.val) :
    zblk3 V c t (ValueIdx.ix2 l q) = zarr3 V c (ValueIdx.ix2 L q) := by
  obtain ⟨-, -, e0, e1, -⟩ := idx_facts3 t
  unfold zblk3 zarr3 iblk3
  rw [View.read_apply]
  show V c main_v19 _ = V c main_v19 _
  refine congrArg (V c main_v19) (funext fun a => Fin.ext ?_)
  match a with
  | ⟨0, _⟩ => show win3_1.index t (0 : Fin 2) * 2048 + 1 * l.val = L.val; rw [e0, hL]; omega
  | ⟨1, _⟩ => show win3_1.index t (1 : Fin 2) * 256 + 1 * q.val = q.val; rw [e1]; omega

theorem bblk3_apply (c : Dev nD) (t : Fin cfg3.N) (q : Fin 256) :
    bblk3 V c t (ValueIdx.ix2 0 q) = barr3 V c (ValueIdx.ix2 0 q) := by
  obtain ⟨-, -, -, -, e0, e1, -⟩ := idx_facts3 t
  unfold bblk3 barr3 iblk3
  rw [View.read_apply]
  show V c main_v20 _ = V c main_v20 _
  refine congrArg (V c main_v20) (funext fun a => Fin.ext ?_)
  match a with
  | ⟨0, _⟩ => show win3_2.index t (0 : Fin 2) * 1 + 1 * 0 = 0; rw [e0]
  | ⟨1, _⟩ => show win3_2.index t (1 : Fin 2) * 256 + 1 * q.val = q.val; rw [e1]; omega

end Points

section Value

open ValueIdx

variable (V : (c : Dev nD) → (b : Ref sig .tc) → Buf (Elt Ideal) ((c : Thread nD τ).loc b))

theorem sum_two_runs3 (C n : ℕ) (hn : n = 2 * C) (f : ℕ → EReal) :
    (0 + ∑ l : Fin C, f l.val) + ∑ l : Fin C, f (C + l.val) = ∑ L : Fin n, f L.val := by
  rw [Cert.Lib.sum_eq_sum_runs 2 C n hn f, Fin.sum_univ_two, zero_add]
  congr 1
  · exact Finset.sum_congr rfl fun l _ => by rw [Fin.val_zero, Nat.zero_mul, Nat.zero_add]
  · exact Finset.sum_congr rfl fun l _ => by rw [Fin.val_one, Nat.one_mul]

def G3 (A : Vec Ideal S4096x4096 .bf16) (Z : Vec Ideal S4096x256 .bf16) (b : Vec Ideal S1x256 .f32) : Vec Ideal S4096x256 .f32 :=
  fun idx => post3 (Cert.Spec.conv (Cert.Spec.mat A) (Cert.Spec.mat Z) (fun j => b (ix2 0 j)) (idx 0) (idx 1))

theorem G3_apply (A : Vec Ideal S4096x4096 .bf16) (Z : Vec Ideal S4096x256 .bf16) (b : Vec Ideal S1x256 .f32) (P : Fin 4096) (q : Fin 256) :
    (G3 A Z b (ix2 P q) : EReal) = post3 ((∑ L : Fin 4096, (A (ix2 P L) : EReal) * (Z (ix2 L q) : EReal)) + (b (ix2 0 q) : EReal)) := rfl

/-- Entry by entry the two runs of 2048 products are the whole row of 4096 products: a sum regrouped, nothing distributed. -/
theorem out3_closed (c : Dev nD) (t : Fin cfg3.N) (h1 : t.val % 2 = 1) (p : Fin 2048) (q : Fin 256) (P : Fin 4096)
    (hP : P.val = 2048 * (t.val / 2) + p.val) :
    ((outsAt3 V c t.val t.isLt).1 (ix2 p q) : EReal) = G3 (farr3 V c) (zarr3 V c) (barr3 V c) (ix2 P q) := by
  have h0 : ¬t.val % 2 = 0 := by omega
  have hp2 : (prev3 t).val / 2 = t.val / 2 := by show (t.val - 1) / 2 = t.val / 2; omega
  have hp0 : (prev3 t).val % 2 = 0 := by show (t.val - 1) % 2 = 0; omega
  rw [out3_odd V c t h0, G3_apply]
  refine (pay3_apply3 _ (bblk3 V c t) p q).trans ?_
  refine congrArg post3 ?_
  rw [bblk3_apply V c t q]
  refine congrArg (fun s : EReal => s + (barr3 V c (ix2 0 q) : EReal)) ?_
  refine (step_apply3 (fblk3 V c t) (zblk3 V c t) _ p q).trans ?_
  rw [step_apply3 (fblk3 V c (prev3 t)) (zblk3 V c (prev3 t)) (k3_pay1 (F := Ideal)) p q, zero_apply3 p q]
  let f : ℕ → EReal := fun n =>
    if h : n < 4096 then (farr3 V c (ix2 P ⟨n, h⟩) : EReal) * (zarr3 V c (ix2 ⟨n, h⟩ q) : EReal) else 0
  have hA : ∀ l : Fin 2048, (fblk3 V c (prev3 t) (ix2 p l) : EReal) * (zblk3 V c (prev3 t) (ix2 l q) : EReal) = f l.val := fun l => by
    have hl : l.val < 4096 := by have := l.isLt; omega
    show _ = dite _ _ _
    rw [dif_pos hl, fblk3_apply V c (prev3 t) p l P ⟨l.val, hl⟩ (by rw [hp2]; exact hP) (by rw [hp0]; show l.val = 2048 * 0 + l.val; omega),
      zblk3_apply V c (prev3 t) l q ⟨l.val, hl⟩ (by rw [hp0]; show l.val = 2048 * 0 + l.val; omega)]
  have hB : ∀ l : Fin 2048, (fblk3 V c t (ix2 p l) : EReal) * (zblk3 V c t (ix2 l q) : EReal) = f (2048 + l.val) := fun l => by
    have hl : 2048 + l.val < 4096 := by have := l.isLt; omega
    show _ = dite _ _ _
    rw [dif_pos hl, fblk3_apply V c t p l P ⟨2048 + l.val, hl⟩ hP (by rw [h1]), zblk3_apply V c t l q ⟨2048 + l.val, hl⟩ (by rw [h1])]
  have hC : ∀ L : Fin 4096, (farr3 V c (ix2 P L) : EReal) * (zarr3 V c (ix2 L q) : EReal) = f L.val := fun L => by
    show _ = dite _ _ _
    rw [dif_pos L.isLt]
  rw [Fintype.sum_congr _ _ hA, Fintype.sum_congr _ _ hB, Fintype.sum_congr _ _ hC]
  exact sum_two_runs3 2048 4096 rfl f

theorem flushed3_eq (c : Dev nD) (t : Fin cfg3.N) (hf : (cfg3.win 3).flush t = true) :
    (dat3 V c).flushed 3 t = ((cfg3.win 3).blk t).view.read (Elt Ideal) (G3 (farr3 V c) (zarr3 V c) (barr3 V c)) := by
  have h1 : t.val % 2 = 1 := (flush3_3 t).mp hf
  obtain ⟨-, -, -, -, -, -, e0, e1⟩ := idx_facts3 t
  have hN : cfg3.N = 4 := N_3
  have ht := t.isLt
  show (cfg3.win 3).cut (grid3.coords t) ((dat3 V c).after 3 t) = _
  rw [after3_3]
  funext j
  have hj0 : (j 0).val < 2048 := (j 0).isLt
  have hj1 : (j 1).val < 256 := (j 1).isLt
  have hP : 2048 * (t.val / 2) + (j 0).val < 4096 := by omega
  refine Eq.trans (b := (outsAt3 V c t.val t.isLt).1 (ix2 ⟨(j 0).val, hj0⟩ ⟨(j 1).val, hj1⟩)) ?_ ?_
  · exact congrArg (outsAt3 V c t.val t.isLt).1 (funext fun a => Fin.ext (by
      match a with
      | ⟨0, _⟩ => rfl
      | ⟨1, _⟩ => rfl))
  · refine (out3_closed V c t h1 ⟨(j 0).val, hj0⟩ ⟨(j 1).val, hj1⟩ ⟨2048 * (t.val / 2) + (j 0).val, hP⟩ rfl).trans ?_
    show G3 (farr3 V c) (zarr3 V c) (barr3 V c) _ = G3 (farr3 V c) (zarr3 V c) (barr3 V c) (((cfg3.win 3).blk t).view.emb j)
    refine congrArg (G3 (farr3 V c) (zarr3 V c) (barr3 V c)) (funext fun a => Fin.ext ?_)
    match a with
    | ⟨0, _⟩ => show 2048 * (t.val / 2) + (j 0).val = win3_3.index t (0 : Fin 2) * 2048 + 1 * (j 0).val; rw [e0]; omega
    | ⟨1, _⟩ => show (j 1).val = win3_3.index t (1 : Fin 2) * 256 + 1 * (j 1).val; rw [e1]; omega

theorem mem_blk3 (t : Fin cfg3.N) (i : S4096x256.Idx) :
    i ∈ ((cfg3.win 3).blk t).view.set ↔ ∀ a : Fin 2, win3_3.index t a * S2048x256.size a ≤ (i a).val ∧ (i a).val < win3_3.index t a * S2048x256.size a + S2048x256.size a := by
  show i ∈ ((View.whole main_v21).slice (win3_3.rect t)).set ↔ _
  rw [View.set_slice_whole, Rect.mem_set_unit]
  exact Iff.rfl

theorem cover3 (i : S4096x256.Idx) : ∃ t : Fin cfg3.N, (cfg3.win 3).flush t = true ∧ i ∈ ((cfg3.win 3).blk t).view.set := by
  have hi0 : (i 0).val < 4096 := (i 0).isLt
  have hi1 : (i 1).val < 256 := (i 1).isLt
  have hN : cfg3.N = 4 := N_3
  obtain ⟨t, ht⟩ : ∃ t : Fin cfg3.N, t.val = 2 * ((i 0).val / 2048) + 1 := ⟨⟨2 * ((i 0).val / 2048) + 1, by rw [hN]; omega⟩, rfl⟩
  obtain ⟨-, -, -, -, -, -, e0, e1⟩ := idx_facts3 t
  refine ⟨t, (flush3_3 t).mpr (by rw [ht]; omega), ?_⟩
  rw [mem_blk3]
  intro a
  match a with
  | ⟨0, _⟩ => show win3_3.index t (0 : Fin 2) * 2048 ≤ (i 0).val ∧ (i 0).val < win3_3.index t (0 : Fin 2) * 2048 + 2048; rw [e0, ht]; omega
  | ⟨1, _⟩ => show win3_3.index t (1 : Fin 2) * 256 ≤ (i 1).val ∧ (i 1).val < win3_3.index t (1 : Fin 2) * 256 + 256; rw [e1]; omega

/-- The call's value: the blocks written back are the blocks of one function of the three arrays, and they cover the output array. -/
theorem final3 (c : Dev nD) :
    (dat3 (F := Ideal) V c).arrAt 3 cfg3.N
      = fun idx => post3 (Cert.Spec.conv (Cert.Spec.mat (V c main_v9)) (Cert.Spec.mat (V c main_v19)) (fun j => V c main_v20 (ValueIdx.ix2 0 j)) (idx 0) (idx 1)) :=
  (dat3 V c).arrAt_eq_of_cover 3 (G3 (farr3 V c) (zarr3 V c) (barr3 V c)) (flushed3_eq V c) cover3

end Value

end Cert.KernelIdeal.Hand

end
-- ==== Proof.HandIdeal.Calls.lean ====
import proofs.«123138_j12206297055730_1_alg».proof.Proof.HandIdeal.R0Value
import proofs.«123138_j12206297055730_1_alg».proof.Proof.HandIdeal.R1Value
import proofs.«123138_j12206297055730_1_alg».proof.Proof.HandIdeal.R2Value
import proofs.«123138_j12206297055730_1_alg».proof.Proof.HandIdeal.R3Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b)) (c : Dev nD)

theorem call0_value : (dat0 (F := Ideal) V c).arrAt 2 cfg0.N
    = fun idx => Cert.Spec.mm (Cert.Spec.mat (V c main_v3)) (Cert.Spec.mat (V c main_v1)) (idx 0) (idx 1) := final0 V c
theorem call1_value : (dat1 (F := Ideal) V c).arrAt 3 cfg1.N
    = fun idx => Cert.Spec.relu (Cert.Spec.conv (Cert.Spec.mat (V c main_v9)) (Cert.Spec.mat (V c main_v11)) (fun j => V c main_v12 (ix2 0 j))) (idx 0) (idx 1) := final1 V c
theorem call2_value : (dat2 (F := Ideal) V c).arrAt 3 cfg2.N
    = fun idx => Cert.Spec.relu (Cert.Spec.conv (Cert.Spec.mat (V c main_v9)) (Cert.Spec.mat (V c main_v15)) (fun j => V c main_v16 (ix2 0 j))) (idx 0) (idx 1) := final2 V c
theorem call3_value : (dat3 (F := Ideal) V c).arrAt 3 cfg3.N
    = fun idx => Cert.Spec.conv (Cert.Spec.mat (V c main_v9)) (Cert.Spec.mat (V c main_v19)) (fun j => V c main_v20 (ix2 0 j)) (idx 0) (idx 1) := final3 V c

end Cert.KernelIdeal.Hand

end
-- ==== Proof.HandIdeal.KernelValue.lean ====
import proofs.«123138_j12206297055730_1_alg».proof.Proof.HandIdeal.Assemble
import proofs.«123138_j12206297055730_1_alg».proof.Proof.HandIdeal.Calls
import proofs.«123138_j12206297055730_1_alg».proof.Proof.Spec
import proofs.«123138_j12206297055730_1_alg».proof.Proof.LibDotSum
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.StableHlo (after_of_writes_sub)
open scoped BigOperators

namespace KV

theorem mat_shapeCast_slice {n : ℕ} (x : (⟨3, ![n, n, 2]⟩ : Shape).Idx → EReal) (o : ℕ) (ho : o < 2)
    (hs : (⟨3, ![n, n, 2]⟩ : Shape).Slices ![0, 0, o] ⟨3, ![n, n, 1]⟩)
    (hc : (⟨3, ![n, n, 1]⟩ : Shape).ShapeCasts ⟨2, ![n, n]⟩) :
    Cert.Spec.mat (shapeCast (⟨2, ![n, n]⟩ : Shape) (extractStridedSlice (⟨3, ![n, n, 1]⟩ : Shape) ![0, 0, o] x hs) hc)
      = Cert.Spec.chan x ⟨o, ho⟩ := by
  funext i j
  show shapeCast (⟨2, ![n, n]⟩ : Shape) (extractStridedSlice (⟨3, ![n, n, 1]⟩ : Shape) ![0, 0, o] x hs) hc (ix2 i j)
    = x (ix3 i j ⟨o, ho⟩)
  rw [shapeCast_apply _ hc (ix2 i j) (ix3 i j (0 : Fin 1))
    (by rw [Shape.rowMajor_val_three, Shape.rowMajor_val_two]
        show (i.val * n + j.val) * 1 + 0 = i.val * n + j.val
        rw [Nat.mul_one, Nat.add_zero])]
  exact extractStridedSlice_apply ![0, 0, o] x hs (ix3 i j (0 : Fin 1)) (ix3 i j ⟨o, ho⟩) (fun a => match a with
    | ⟨0, _⟩ => by show i.val = 0 + i.val; rw [Nat.zero_add]
    | ⟨1, _⟩ => by show j.val = 0 + j.val; rw [Nat.zero_add]
    | ⟨2, _⟩ => by show o = o + 0; rw [Nat.add_zero])

theorem shapeCast_row {n : ℕ} (b : (⟨1, ![n]⟩ : Shape).Idx → EReal) (hc : (⟨1, ![n]⟩ : Shape).ShapeCasts ⟨2, ![1, n]⟩) (j : Fin n) :
    shapeCast (⟨2, ![1, n]⟩ : Shape) b hc (ix2 0 j) = Cert.Spec.row b j := by
  show _ = b (ix1 j)
  exact shapeCast_apply b hc (ix2 0 j) (ix1 j)
    (by rw [Shape.rowMajor_val_one, Shape.rowMajor_val_two]
        show j.val = 0 * n + j.val
        rw [Nat.zero_mul, Nat.zero_add])

theorem mat_dotGeneral {M K N : ℕ} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) :
    Cert.Spec.mat (Host.dotGeneral d prec A B) = Cert.Spec.mm (Cert.Spec.mat A) (Cert.Spec.mat B) := by
  funext r c
  exact Cert.Lib.dotGeneral_rc_apply d hlc hrc hln hrn hlb hrb prec A B r c

theorem colMean_read (X : FVec Ideal ⟨2, ![4096, 4096]⟩ .f32)
    (hr : (⟨2, ![4096, 4096]⟩ : Shape).ReducesTo [0] ⟨1, ![4096]⟩) (hu : 0 < (⟨0, ![]⟩ : Shape).numel)
    (hb : (⟨0, ![]⟩ : Shape).BroadcastsInDim ⟨1, ![4096]⟩ (![] : Fin 0 → Fin 1)) (i : Fin 4096) :
    Host.divf (Host.reduceAdd X (constant (F := Ideal) ⟨0, ![]⟩ .f32 0x00000000#32) hr hu)
        (broadcastInDim (⟨1, ![4096]⟩ : Shape) ![] hb (constant (F := Ideal) ⟨0, ![]⟩ .f32 0x45800000#32)) (ix1 i)
      = Cert.Spec.colMean (Cert.Spec.mat X) i := by
  show Ideal.div (Ideal.hostReduceAdd hr X (Ideal.ofBits .f32 0x00000000#32) (ix1 i))
      (broadcastInDim (⟨1, ![4096]⟩ : Shape) ![] hb (constant (F := Ideal) ⟨0, ![]⟩ .f32 0x45800000#32) (ix1 i))
    = Ideal.div (Cert.Spec.zeroW + ∑ r : Fin 4096, X (ix2 r i)) Cert.Spec.n4096W
  rw [broadcastInDim_apply _ hb _ (ix1 i) ix0 (fun a => a.elim0),
    Ideal.hostReduceAdd_single hr (by decide)]
  refine congrArg (fun s => Ideal.div (Cert.Spec.zeroW + s) Cert.Spec.n4096W) (Finset.sum_congr rfl fun k _ => ?_)
  exact congrArg X (funext fun a => Fin.ext (by match a with | ⟨0, _⟩ => rfl | ⟨1, _⟩ => rfl))

theorem bcast_rows_read (g : (⟨1, ![4096]⟩ : Shape).Idx → EReal)
    (h1 : (⟨1, ![4096]⟩ : Shape).BroadcastsInDim ⟨2, ![4096, 1]⟩ (![0] : Fin 1 → Fin 2))
    (h2 : (⟨2, ![4096, 1]⟩ : Shape).BroadcastsInDim ⟨2, ![4096, 256]⟩ (![0, 1] : Fin 2 → Fin 2))
    (idx : (⟨2, ![4096, 256]⟩ : Shape).Idx) :
    broadcastInDim (⟨2, ![4096, 256]⟩ : Shape) ![0, 1] h2 (broadcastInDim (⟨2, ![4096, 1]⟩ : Shape) ![0] h1 g) idx = g (ix1 (idx 0)) := by
  rw [broadcastInDim_apply _ h2 _ idx (ix2 (idx 0) (0 : Fin 1)) (fun a => match a with
    | ⟨0, _⟩ => by show (idx 0).val = if (4096 : Nat) = 1 then 0 else (idx 0).val; rw [if_neg (by decide)]
    | ⟨1, _⟩ => by show 0 = if (1 : Nat) = 1 then 0 else (idx 1).val; rw [if_pos rfl])]
  exact broadcastInDim_apply _ h1 g (ix2 (idx 0) (0 : Fin 1)) (ix1 (idx 0)) (fun a => match a with
    | ⟨0, _⟩ => by show (idx 0).val = if (4096 : Nat) = 1 then 0 else (idx 0).val; rw [if_neg (by decide)])

variable (m : (ℓ : Loc nD τ sig) → Buf (Elt Ideal) ℓ) (c : Dev nD)

abbrev aY : (⟨2, ![4096, 256]⟩ : Shape).Idx → EReal := m ((c : Thread nD τ).loc main_arg0)
abbrev aAdj : (⟨3, ![4096, 4096, 2]⟩ : Shape).Idx → EReal := m ((c : Thread nD τ).loc main_arg1)
abbrev aDadj : (⟨3, ![4096, 4096, 2]⟩ : Shape).Idx → EReal := m ((c : Thread nD τ).loc main_arg2)
abbrev aW0 : (⟨2, ![256, 256]⟩ : Shape).Idx → EReal := m ((c : Thread nD τ).loc main_arg3)
abbrev aB0 : (⟨1, ![256]⟩ : Shape).Idx → EReal := m ((c : Thread nD τ).loc main_arg4)
abbrev aW1 : (⟨2, ![256, 256]⟩ : Shape).Idx → EReal := m ((c : Thread nD τ).loc main_arg5)
abbrev aB1 : (⟨1, ![256]⟩ : Shape).Idx → EReal := m ((c : Thread nD τ).loc main_arg6)
abbrev aW2 : (⟨2, ![256, 256]⟩ : Shape).Idx → EReal := m ((c : Thread nD τ).loc main_arg7)
abbrev aB2 : (⟨1, ![256]⟩ : Shape).Idx → EReal := m ((c : Thread nD τ).loc main_arg8)

abbrev fF : Cert.Spec.Mat 4096 4096 := Cert.Spec.mm (Cert.Spec.chan (aDadj m c) 1) (Cert.Spec.chan (aAdj m c) 1)

theorem W1_of (b : Ref sig .tc) (h : b ∉ hostOps0_W) : W1 m c (Proc.devRef .tc b) = m ((c : Thread nD τ).loc b) :=
  after_of_writes_sub hostOps0 _ hostOps0_writes h
theorem W3_of (b : Ref sig .tc) (h : b ∉ hostOps1_W) : W3 m c (Proc.devRef .tc b) = W2 m c (Proc.devRef .tc b) :=
  after_of_writes_sub hostOps1 _ hostOps1_writes h
theorem W5_of (b : Ref sig .tc) (h : b ∉ hostOps2_W) : W5 m c (Proc.devRef .tc b) = W4 m c (Proc.devRef .tc b) :=
  after_of_writes_sub hostOps2 _ hostOps2_writes h
theorem W7_of (b : Ref sig .tc) (h : b ∉ hostOps3_W) : W7 m c (Proc.devRef .tc b) = W6 m c (Proc.devRef .tc b) :=
  after_of_writes_sub hostOps3 _ hostOps3_writes h

theorem W2_arg (b : Ref sig .tc) (h0 : b ∉ hostOps0_W) (g0 : ∀ w, Pipeline.arrRef spec0 w ≠ b) :
    W2 m c (Proc.devRef .tc b) = m ((c : Thread nD τ).loc b) :=
  (W2_of_ne m c b g0).trans (W1_of m c b h0)

theorem W4_arg (b : Ref sig .tc) (h0 : b ∉ hostOps0_W) (h1 : b ∉ hostOps1_W) (g0 : ∀ w, Pipeline.arrRef spec0 w ≠ b)
    (g1 : ∀ w, Pipeline.arrRef spec1 w ≠ b) : W4 m c (Proc.devRef .tc b) = m ((c : Thread nD τ).loc b) :=
  (W4_of_ne m c b g1).trans ((W3_of m c b h1).trans (W2_arg m c b h0 g0))

theorem W6_arg (b : Ref sig .tc) (h0 : b ∉ hostOps0_W) (h1 : b ∉ hostOps1_W) (h2 : b ∉ hostOps2_W)
    (g0 : ∀ w, Pipeline.arrRef spec0 w ≠ b) (g1 : ∀ w, Pipeline.arrRef spec1 w ≠ b) (g2 : ∀ w, Pipeline.arrRef spec2 w ≠ b) :
    W6 m c (Proc.devRef .tc b) = m ((c : Thread nD τ).loc b) :=
  (W6_of_ne m c b g2).trans ((W5_of m c b h2).trans (W4_arg m c b h0 h1 g0 g1))

theorem W1_chanAdj : Cert.Spec.mat (n := 4096) (m := 4096) (W1 m c (Proc.devRef .tc main_v1)) = Cert.Spec.chan (aAdj m c) 1 := by
  have e : W1 m c (Proc.devRef .tc main_v1)
      = shapeCast S4096x4096 (extractStridedSlice S4096x4096x1 ![0, 0, 1] (aAdj m c) slices_S4096x4096x2_S4096x4096x1_0_0_1) shapeCasts_S4096x4096x1_S4096x4096 := by
    show StableHlo.after hostOps0 (W0 m c) (Proc.devRef .tc main_v1) = _
    open Idealize.ShloMosaic.StableHlo in after_results
    try rfl
  rw [e]
  exact mat_shapeCast_slice (aAdj m c) 1 (by decide) _ _

theorem W1_chanDadj : Cert.Spec.mat (n := 4096) (m := 4096) (W1 m c (Proc.devRef .tc main_v3)) = Cert.Spec.chan (aDadj m c) 1 := by
  have e : W1 m c (Proc.devRef .tc main_v3)
      = shapeCast S4096x4096 (extractStridedSlice S4096x4096x1 ![0, 0, 1] (aDadj m c) slices_S4096x4096x2_S4096x4096x1_0_0_1) shapeCasts_S4096x4096x1_S4096x4096 := by
    show StableHlo.after hostOps0 (W0 m c) (Proc.devRef .tc main_v3) = _
    open Idealize.ShloMosaic.StableHlo in after_results
    try rfl
  rw [e]
  exact mat_shapeCast_slice (aDadj m c) 1 (by decide) _ _

theorem W1_colMean (i : Fin 4096) :
    (W1 m c (Proc.devRef .tc main_v8) : (⟨1, ![4096]⟩ : Shape).Idx → EReal) (ix1 i) = Cert.Spec.colMean (Cert.Spec.chan (aDadj m c) 0) i := by
  have e : W1 m c (Proc.devRef .tc main_v8)
      = Host.divf (Host.reduceAdd (shapeCast S4096x4096 (extractStridedSlice S4096x4096x1 ![0, 0, 0] (aDadj m c) slices_S4096x4096x2_S4096x4096x1_0_0_0) shapeCasts_S4096x4096x1_S4096x4096)
            (constant (F := Ideal) S_ .f32 0x00000000#32) reducesTo_S4096x4096_S4096_d0 h_S_)
          (broadcastInDim S4096 ![] bcast_S_S4096 (constant (F := Ideal) S_ .f32 0x45800000#32)) := by
    show StableHlo.after hostOps0 (W0 m c) (Proc.devRef .tc main_v8) = _
    open Idealize.ShloMosaic.StableHlo in after_results
    try rfl
  rw [e, colMean_read, mat_shapeCast_slice (aDadj m c) 0 (by decide)]
  rfl

theorem W2_v9 : Cert.Spec.mat (n := 4096) (m := 4096) (W2 m c (Proc.devRef .tc main_v9)) = fF m c := by
  have h := W2_arr (F := Ideal) m c 2
  rw [call0_value] at h
  show Cert.Spec.mat (n := 4096) (m := 4096) (W2 m c (Proc.devRef .tc (Pipeline.arrRef spec0 2))) = _
  rw [h]
  show Cert.Spec.mm (Cert.Spec.mat (n := 4096) (m := 4096) (W1 m c (Proc.devRef .tc main_v3)))
      (Cert.Spec.mat (n := 4096) (m := 4096) (W1 m c (Proc.devRef .tc main_v1))) = _
  rw [W1_chanDadj, W1_chanAdj]

theorem W3_v9 : W3 m c (Proc.devRef .tc main_v9) = W2 m c (Proc.devRef .tc main_v9) := W3_of m c main_v9 (by decide)
theorem W4_v9 : W4 m c (Proc.devRef .tc main_v9) = W3 m c (Proc.devRef .tc main_v9) := by
  have h := W4_arr (F := Ideal) m c 0
  rw [(dat1 (U3 m) c).arrAt_in 0 rfl, A_eq1] at h
  exact h
theorem W5_v9 : W5 m c (Proc.devRef .tc main_v9) = W4 m c (Proc.devRef .tc main_v9) := W5_of m c main_v9 (by decide)
theorem W6_v9 : W6 m c (Proc.devRef .tc main_v9) = W5 m c (Proc.devRef .tc main_v9) := by
  have h := W6_arr (F := Ideal) m c 0
  rw [(dat2 (U5 m) c).arrAt_in 0 rfl, A_eq2] at h
  exact h
theorem W7_v9 : W7 m c (Proc.devRef .tc main_v9) = W6 m c (Proc.devRef .tc main_v9) := W7_of m c main_v9 (by decide)

theorem W3_v9m : Cert.Spec.mat (n := 4096) (m := 4096) (W3 m c (Proc.devRef .tc main_v9)) = fF m c := by
  rw [W3_v9, W2_v9]
theorem W5_v9m : Cert.Spec.mat (n := 4096) (m := 4096) (W5 m c (Proc.devRef .tc main_v9)) = fF m c := by
  rw [W5_v9, W4_v9, W3_v9m]
theorem W7_v9m : Cert.Spec.mat (n := 4096) (m := 4096) (W7 m c (Proc.devRef .tc main_v9)) = fF m c := by
  rw [W7_v9, W6_v9, W5_v9m]

theorem W3_v11 : Cert.Spec.mat (n := 4096) (m := 256) (W3 m c (Proc.devRef .tc main_v11))
    = Cert.Spec.mm (Cert.Spec.mat (aY m c)) (Cert.Spec.mat (aW0 m c)) := by
  have e : W3 m c (Proc.devRef .tc main_v11)
      = truncf (F := Ideal) .bf16 (Host.dotGeneral (F := Ideal) (φ₁ := .f32) (φ₂ := .f32) dot_S4096x256_S256x256_S4096x256_1_0_0_1_n_n none
          (W2 m c (Proc.devRef .tc main_arg0)) (W2 m c (Proc.devRef .tc main_arg3))) bitsLt_bf16_f32 := by
    show StableHlo.after hostOps1 (W2 m c) (Proc.devRef .tc main_v11) = _
    open Idealize.ShloMosaic.StableHlo in after_results
    try rfl
  rw [e, W2_arg m c main_arg0 (by decide) (by decide), W2_arg m c main_arg3 (by decide) (by decide)]
  exact mat_dotGeneral (φ₁ := .f32) (φ₂ := .f32) dot_S4096x256_S256x256_S4096x256_1_0_0_1_n_n rfl rfl rfl rfl rfl rfl none (aY m c) (aW0 m c)

theorem W3_v12 : (fun j : Fin 256 => (W3 m c (Proc.devRef .tc main_v12) : (⟨2, ![1, 256]⟩ : Shape).Idx → EReal) (ix2 0 j)) = Cert.Spec.row (aB0 m c) := by
  have e : W3 m c (Proc.devRef .tc main_v12) = shapeCast S1x256 (W2 m c (Proc.devRef .tc main_arg4)) shapeCasts_S256_S1x256 := by
    show StableHlo.after hostOps1 (W2 m c) (Proc.devRef .tc main_v12) = _
    open Idealize.ShloMosaic.StableHlo in after_results
    try rfl
  rw [e, W2_arg m c main_arg4 (by decide) (by decide)]
  funext j
  exact shapeCast_row (aB0 m c) shapeCasts_S256_S1x256 j

theorem W4_v13 : Cert.Spec.mat (n := 4096) (m := 256) (W4 m c (Proc.devRef .tc main_v13))
    = Cert.Spec.relu (Cert.Spec.layerK (fF m c) (Cert.Spec.mat (aY m c)) (Cert.Spec.mat (aW0 m c)) (Cert.Spec.row (aB0 m c))) := by
  have h := W4_arr (F := Ideal) m c 3
  rw [call1_value] at h
  show Cert.Spec.mat (n := 4096) (m := 256) (W4 m c (Proc.devRef .tc (Pipeline.arrRef spec1 3))) = _
  rw [h]
  show Cert.Spec.relu (Cert.Spec.conv (Cert.Spec.mat (n := 4096) (m := 4096) (W3 m c (Proc.devRef .tc main_v9)))
      (Cert.Spec.mat (n := 4096) (m := 256) (W3 m c (Proc.devRef .tc main_v11)))
      (fun j : Fin 256 => (W3 m c (Proc.devRef .tc main_v12) : (⟨2, ![1, 256]⟩ : Shape).Idx → EReal) (ix2 0 j))) = _
  rw [W3_v9m, W3_v11, W3_v12]
  rfl

abbrev L0 : Cert.Spec.Mat 4096 256 :=
  Cert.Spec.relu (Cert.Spec.layerK (fF m c) (Cert.Spec.mat (aY m c)) (Cert.Spec.mat (aW0 m c)) (Cert.Spec.row (aB0 m c)))

abbrev L1 : Cert.Spec.Mat 4096 256 :=
  Cert.Spec.relu (Cert.Spec.layerK (fF m c) (L0 m c) (Cert.Spec.mat (aW1 m c)) (Cert.Spec.row (aB1 m c)))

theorem W5_v15 : Cert.Spec.mat (n := 4096) (m := 256) (W5 m c (Proc.devRef .tc main_v15))
    = Cert.Spec.mm (L0 m c) (Cert.Spec.mat (aW1 m c)) := by
  have e : W5 m c (Proc.devRef .tc main_v15)
      = truncf (F := Ideal) .bf16 (Host.dotGeneral (F := Ideal) (φ₁ := .f32) (φ₂ := .f32) dot_S4096x256_S256x256_S4096x256_1_0_0_1_n_n none
          (W4 m c (Proc.devRef .tc main_v13)) (W4 m c (Proc.devRef .tc main_arg5))) bitsLt_bf16_f32 := by
    show StableHlo.after hostOps2 (W4 m c) (Proc.devRef .tc main_v15) = _
    open Idealize.ShloMosaic.StableHlo in after_results
    try rfl
  rw [e, W4_arg m c main_arg5 (by decide) (by decide) (by decide) (by decide)]
  refine (mat_dotGeneral (φ₁ := .f32) (φ₂ := .f32) dot_S4096x256_S256x256_S4096x256_1_0_0_1_n_n rfl rfl rfl rfl rfl rfl none
    (W4 m c (Proc.devRef .tc main_v13)) (aW1 m c)).trans ?_
  rw [W4_v13]

theorem W5_v16 : (fun j : Fin 256 => (W5 m c (Proc.devRef .tc main_v16) : (⟨2, ![1, 256]⟩ : Shape).Idx → EReal) (ix2 0 j)) = Cert.Spec.row (aB1 m c) := by
  have e : W5 m c (Proc.devRef .tc main_v16) = shapeCast S1x256 (W4 m c (Proc.devRef .tc main_arg6)) shapeCasts_S256_S1x256 := by
    show StableHlo.after hostOps2 (W4 m c) (Proc.devRef .tc main_v16) = _
    open Idealize.ShloMosaic.StableHlo in after_results
    try rfl
  rw [e, W4_arg m c main_arg6 (by decide) (by decide) (by decide) (by decide)]
  funext j
  exact shapeCast_row (aB1 m c) shapeCasts_S256_S1x256 j

theorem W6_v17 : Cert.Spec.mat (n := 4096) (m := 256) (W6 m c (Proc.devRef .tc main_v17)) = L1 m c := by
  have h := W6_arr (F := Ideal) m c 3
  rw [call2_value] at h
  show Cert.Spec.mat (n := 4096) (m := 256) (W6 m c (Proc.devRef .tc (Pipeline.arrRef spec2 3))) = _
  rw [h]
  show Cert.Spec.relu (Cert.Spec.conv (Cert.Spec.mat (n := 4096) (m := 4096) (W5 m c (Proc.devRef .tc main_v9)))
      (Cert.Spec.mat (n := 4096) (m := 256) (W5 m c (Proc.devRef .tc main_v15)))
      (fun j : Fin 256 => (W5 m c (Proc.devRef .tc main_v16) : (⟨2, ![1, 256]⟩ : Shape).Idx → EReal) (ix2 0 j))) = _
  rw [W5_v9m, W5_v15, W5_v16]
  rfl

theorem W7_v19 : Cert.Spec.mat (n := 4096) (m := 256) (W7 m c (Proc.devRef .tc main_v19))
    = Cert.Spec.mm (L1 m c) (Cert.Spec.mat (aW2 m c)) := by
  have e : W7 m c (Proc.devRef .tc main_v19)
      = truncf (F := Ideal) .bf16 (Host.dotGeneral (F := Ideal) (φ₁ := .f32) (φ₂ := .f32) dot_S4096x256_S256x256_S4096x256_1_0_0_1_n_n none
          (W6 m c (Proc.devRef .tc main_v17)) (W6 m c (Proc.devRef .tc main_arg7))) bitsLt_bf16_f32 := by
    show StableHlo.after hostOps3 (W6 m c) (Proc.devRef .tc main_v19) = _
    open Idealize.ShloMosaic.StableHlo in after_results
    try rfl
  rw [e, W6_arg m c main_arg7 (by decide) (by decide) (by decide) (by decide) (by decide) (by decide)]
  refine (mat_dotGeneral (φ₁ := .f32) (φ₂ := .f32) dot_S4096x256_S256x256_S4096x256_1_0_0_1_n_n rfl rfl rfl rfl rfl rfl none
    (W6 m c (Proc.devRef .tc main_v17)) (aW2 m c)).trans ?_
  rw [W6_v17]

theorem W7_v20 : (fun j : Fin 256 => (W7 m c (Proc.devRef .tc main_v20) : (⟨2, ![1, 256]⟩ : Shape).Idx → EReal) (ix2 0 j)) = Cert.Spec.row (aB2 m c) := by
  have e : W7 m c (Proc.devRef .tc main_v20) = shapeCast S1x256 (W6 m c (Proc.devRef .tc main_arg8)) shapeCasts_S256_S1x256 := by
    show StableHlo.after hostOps3 (W6 m c) (Proc.devRef .tc main_v20) = _
    open Idealize.ShloMosaic.StableHlo in after_results
    try rfl
  rw [e, W6_arg m c main_arg8 (by decide) (by decide) (by decide) (by decide) (by decide) (by decide)]
  funext j
  exact shapeCast_row (aB2 m c) shapeCasts_S256_S1x256 j

theorem W8_v21 : Cert.Spec.mat (n := 4096) (m := 256) (W8 m c (Proc.devRef .tc main_v21))
    = Cert.Spec.netK (fF m c) (Cert.Spec.mat (aY m c)) (Cert.Spec.mat (aW0 m c)) (Cert.Spec.row (aB0 m c))
        (Cert.Spec.mat (aW1 m c)) (Cert.Spec.row (aB1 m c)) (Cert.Spec.mat (aW2 m c)) (Cert.Spec.row (aB2 m c)) := by
  have h := W8_arr (F := Ideal) m c 3
  rw [call3_value] at h
  show Cert.Spec.mat (n := 4096) (m := 256) (W8 m c (Proc.devRef .tc (Pipeline.arrRef spec3 3))) = _
  rw [h]
  show Cert.Spec.conv (Cert.Spec.mat (n := 4096) (m := 4096) (W7 m c (Proc.devRef .tc main_v9)))
      (Cert.Spec.mat (n := 4096) (m := 256) (W7 m c (Proc.devRef .tc main_v19)))
      (fun j : Fin 256 => (W7 m c (Proc.devRef .tc main_v20) : (⟨2, ![1, 256]⟩ : Shape).Idx → EReal) (ix2 0 j)) = _
  rw [W7_v9m, W7_v19, W7_v20]
  rfl

theorem W8_v8 : W8 m c (Proc.devRef .tc main_v8) = W1 m c (Proc.devRef .tc main_v8) :=
  calc W8 m c (Proc.devRef .tc main_v8)
    _ = W7 m c (Proc.devRef .tc main_v8) := W8_of_ne m c main_v8 (by decide)
    _ = W6 m c (Proc.devRef .tc main_v8) := W7_of m c main_v8 (by decide)
    _ = W5 m c (Proc.devRef .tc main_v8) := W6_of_ne m c main_v8 (by decide)
    _ = W4 m c (Proc.devRef .tc main_v8) := W5_of m c main_v8 (by decide)
    _ = W3 m c (Proc.devRef .tc main_v8) := W4_of_ne m c main_v8 (by decide)
    _ = W2 m c (Proc.devRef .tc main_v8) := W3_of m c main_v8 (by decide)
    _ = W1 m c (Proc.devRef .tc main_v8) := W2_of_ne m c main_v8 (by decide)

theorem result :
    W9 (F := Ideal) m c main_v24
      = Cert.Spec.resultK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e : W9 m c (Proc.devRef .tc main_v24)
      = mulf (F := Ideal) (φ := .f32)
          (broadcastInDim S4096x256 ![0, 1] bcast_S4096x1_S4096x256_0_1 (broadcastInDim S4096x1 ![0] bcast_S4096_S4096x1_0 (W8 m c (Proc.devRef .tc main_v8))))
          (W8 m c (Proc.devRef .tc main_v21)) := by
    show StableHlo.after hostOps4 (W8 m c) (Proc.devRef .tc main_v24) = _
    open Idealize.ShloMosaic.StableHlo in after_results
    try rfl
  show W9 m c (Proc.devRef .tc main_v24) = _
  rw [e]
  funext idx
  show (broadcastInDim S4096x256 ![0, 1] bcast_S4096x1_S4096x256_0_1 (broadcastInDim S4096x1 ![0] bcast_S4096_S4096x1_0
        (W8 m c (Proc.devRef .tc main_v8) : (⟨1, ![4096]⟩ : Shape).Idx → EReal)) idx : EReal)
      * (W8 m c (Proc.devRef .tc main_v21) : (⟨2, ![4096, 256]⟩ : Shape).Idx → EReal) idx
    = Cert.Spec.colMean (Cert.Spec.chan (aDadj m c) 0) (idx 0)
      * Cert.Spec.netK (fF m c) (Cert.Spec.mat (aY m c)) (Cert.Spec.mat (aW0 m c)) (Cert.Spec.row (aB0 m c))
          (Cert.Spec.mat (aW1 m c)) (Cert.Spec.row (aB1 m c)) (Cert.Spec.mat (aW2 m c)) (Cert.Spec.row (aB2 m c)) (idx 0) (idx 1)
  rw [bcast_rows_read, W8_v8]
  have h1 : (W1 m c (Proc.devRef .tc main_v8) : (⟨1, ![4096]⟩ : Shape).Idx → EReal) (ix1 (idx 0))
      = Cert.Spec.colMean (Cert.Spec.chan (aDadj m c) 0) (idx 0) := W1_colMean m c (idx 0)
  have h2 : (W8 m c (Proc.devRef .tc main_v21) : (⟨2, ![4096, 256]⟩ : Shape).Idx → EReal) idx
      = Cert.Spec.netK (fF m c) (Cert.Spec.mat (aY m c)) (Cert.Spec.mat (aW0 m c)) (Cert.Spec.row (aB0 m c))
          (Cert.Spec.mat (aW1 m c)) (Cert.Spec.row (aB1 m c)) (Cert.Spec.mat (aW2 m c)) (Cert.Spec.row (aB2 m c)) (idx 0) (idx 1) :=
    (congrArg (W8 m c (Proc.devRef .tc main_v21) : (⟨2, ![4096, 256]⟩ : Shape).Idx → EReal) (eq_ix2 idx)).trans
      (congrFun (congrFun (W8_v21 m c) (idx 0)) (idx 1))
  exact congrArg₂ (· * ·) h1 h2

end KV

theorem W9_result (m : (ℓ : Loc nD τ sig) → Buf (Elt Ideal) ℓ) (c : Dev nD) :
    W9 (F := Ideal) m c main_v24
      = Cert.Spec.resultK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  KV.result m c

end Cert.KernelIdeal.Hand

end
-- ==== Proof.RefValue.lean ====
import proofs.«123138_j12206297055730_1_alg».proof.Proof.Gen.ReferenceIdeal.Run
import proofs.«123138_j12206297055730_1_alg».proof.Proof.Gen.ReferenceIdeal.Read
import proofs.«123138_j12206297055730_1_alg».proof.Proof.Spec
import proofs.«123138_j12206297055730_1_alg».proof.Proof.LibDotSum

noncomputable section

namespace Cert.RefValue

open Cert.ReferenceIdeal Cert.ReferenceIdeal.Read Cert.Spec
open Idealize.ShloMosaic Idealize.ShloMosaic.ValueIdx Idealize.ShloMosaic.TcCoe Idealize.SL.Sem Idealize.ShloMosaic.StableHlo
open scoped BigOperators

variable (x0 : (⟨S4096x256, .f32⟩ : BufTy).Contents (Elt Ideal))
  (x1 x2 : (⟨S4096x4096x2, .f32⟩ : BufTy).Contents (Elt Ideal))
  (x3 : (⟨S256x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x256, .f32⟩ : BufTy).Contents (Elt Ideal)) (x8 : (⟨S256, .f32⟩ : BufTy).Contents (Elt Ideal))

theorem v1_at (i k : Fin 4096) : val_main_v1 (F := Ideal) x1 (ix2 i k) = chan x1 1 i k := by
  rw [val_main_v1_apply, val_main_v0_apply]
  refine congrArg x1 (funext fun a => Fin.ext ?_)
  have hi := i.isLt
  have hk := k.isLt
  match a with
  | ⟨0, _⟩ => show (i.val * 4096 + k.val) / 4096 = i.val; omega
  | ⟨1, _⟩ => show (i.val * 4096 + k.val) / 1 % 4096 = k.val; omega
  | ⟨2, _⟩ => rfl

theorem v3_at (i k : Fin 4096) : val_main_v3 (F := Ideal) x2 (ix2 i k) = chan x2 1 i k := by
  rw [val_main_v3_apply, val_main_v2_apply]
  refine congrArg x2 (funext fun a => Fin.ext ?_)
  have hi := i.isLt
  have hk := k.isLt
  match a with
  | ⟨0, _⟩ => show (i.val * 4096 + k.val) / 4096 = i.val; omega
  | ⟨1, _⟩ => show (i.val * 4096 + k.val) / 1 % 4096 = k.val; omega
  | ⟨2, _⟩ => rfl

theorem v23_at (i k : Fin 4096) : val_main_v23 (F := Ideal) x2 (ix2 i k) = chan x2 0 i k := by
  rw [val_main_v23_apply, val_main_v22_apply]
  refine congrArg x2 (funext fun a => Fin.ext ?_)
  have hi := i.isLt
  have hk := k.isLt
  match a with
  | ⟨0, _⟩ => show (i.val * 4096 + k.val) / 4096 = i.val; omega
  | ⟨1, _⟩ => show (i.val * 4096 + k.val) / 1 % 4096 = k.val; omega
  | ⟨2, _⟩ => rfl

abbrev fm : Mat 4096 4096 := mm (chan x2 1) (chan x1 1)

theorem v4_at (i k : Fin 4096) : val_main_v4 (F := Ideal) x1 x2 (ix2 i k) = fm x1 x2 i k := by
  rw [val_main_v4_apply]
  refine Finset.sum_congr rfl fun l _ => ?_
  have el : lidx_main_v4 (ix2 i k) l = ix2 i l :=
    funext fun a => Fin.ext (by match a with | ⟨0, _⟩ => rfl | ⟨1, _⟩ => rfl)
  have er : ridx_main_v4 (ix2 i k) l = ix2 l k :=
    funext fun a => Fin.ext (by match a with | ⟨0, _⟩ => rfl | ⟨1, _⟩ => rfl)
  rw [el, er, v3_at, v1_at]

theorem v5_at (i : Fin 4096) (j : Fin 256) :
    val_main_v5 (F := Ideal) x0 x1 x2 (ix2 i j) = mm (fm x1 x2) (mat x0) i j := by
  rw [val_main_v5_apply]
  refine Finset.sum_congr rfl fun l _ => ?_
  have el : lidx_main_v5 (ix2 i j) l = ix2 i l :=
    funext fun a => Fin.ext (by match a with | ⟨0, _⟩ => rfl | ⟨1, _⟩ => rfl)
  have er : ridx_main_v5 (ix2 i j) l = ix2 l j :=
    funext fun a => Fin.ext (by match a with | ⟨0, _⟩ => rfl | ⟨1, _⟩ => rfl)
  rw [el, er, v4_at]
  exact rfl

theorem v6_at (i : Fin 4096) (j : Fin 256) :
    val_main_v6 (F := Ideal) x0 x1 x2 x3 (ix2 i j) = mm (mm (fm x1 x2) (mat x0)) (mat x3) i j := by
  rw [val_main_v6_apply]
  refine Finset.sum_congr rfl fun l _ => ?_
  have el : lidx_main_v6 (ix2 i j) l = ix2 i l :=
    funext fun a => Fin.ext (by match a with | ⟨0, _⟩ => rfl | ⟨1, _⟩ => rfl)
  have er : ridx_main_v6 (ix2 i j) l = ix2 l j :=
    funext fun a => Fin.ext (by match a with | ⟨0, _⟩ => rfl | ⟨1, _⟩ => rfl)
  rw [el, er, v5_at]
  exact rfl

theorem v8_at (i : Fin 4096) (j : Fin 256) : val_main_v8 (F := Ideal) x4 (ix2 i j) = row x4 j := by
  rw [val_main_v8_apply, val_main_v7_apply]
  exact congrArg x4 (funext fun a => Fin.ext (by match a with | ⟨0, _⟩ => rfl))

theorem call0_at (i : Fin 4096) (j : Fin 256) : val_main_call0_v0 (F := Ideal) (ix2 i j) = zeroW :=
  (val_main_call0_v0_apply _).trans (val_main_call0_cst_apply _)

abbrev h0 : Mat 4096 256 := relu (layerR (fm x1 x2) (mat x0) (mat x3) (row x4))

theorem v10_at (i : Fin 4096) (j : Fin 256) :
    val_main_v10 (F := Ideal) x0 x1 x2 x3 x4 (ix2 i j) = h0 x0 x1 x2 x3 x4 i j := by
  rw [val_main_v10_apply, val_main_v9_apply, v6_at, v8_at, call0_at]
  exact rfl

theorem v11_at (i : Fin 4096) (j : Fin 256) :
    val_main_v11 (F := Ideal) x0 x1 x2 x3 x4 (ix2 i j) = mm (fm x1 x2) (h0 x0 x1 x2 x3 x4) i j := by
  rw [val_main_v11_apply]
  refine Finset.sum_congr rfl fun l _ => ?_
  have el : lidx_main_v11 (ix2 i j) l = ix2 i l :=
    funext fun a => Fin.ext (by match a with | ⟨0, _⟩ => rfl | ⟨1, _⟩ => rfl)
  have er : ridx_main_v11 (ix2 i j) l = ix2 l j :=
    funext fun a => Fin.ext (by match a with | ⟨0, _⟩ => rfl | ⟨1, _⟩ => rfl)
  rw [el, er, v4_at, v10_at]

theorem v12_at (i : Fin 4096) (j : Fin 256) :
    val_main_v12 (F := Ideal) x0 x1 x2 x3 x4 x5 (ix2 i j) = mm (mm (fm x1 x2) (h0 x0 x1 x2 x3 x4)) (mat x5) i j := by
  rw [val_main_v12_apply]
  refine Finset.sum_congr rfl fun l _ => ?_
  have el : lidx_main_v12 (ix2 i j) l = ix2 i l :=
    funext fun a => Fin.ext (by match a with | ⟨0, _⟩ => rfl | ⟨1, _⟩ => rfl)
  have er : ridx_main_v12 (ix2 i j) l = ix2 l j :=
    funext fun a => Fin.ext (by match a with | ⟨0, _⟩ => rfl | ⟨1, _⟩ => rfl)
  rw [el, er, v11_at]
  exact rfl

theorem v14_at (i : Fin 4096) (j : Fin 256) : val_main_v14 (F := Ideal) x6 (ix2 i j) = row x6 j := by
  rw [val_main_v14_apply, val_main_v13_apply]
  exact congrArg x6 (funext fun a => Fin.ext (by match a with | ⟨0, _⟩ => rfl))

theorem call1_at (i : Fin 4096) (j : Fin 256) : val_main_call1_v0 (F := Ideal) (ix2 i j) = zeroW :=
  (val_main_call1_v0_apply _).trans (val_main_call1_cst_apply _)

abbrev h1 : Mat 4096 256 := relu (layerR (fm x1 x2) (h0 x0 x1 x2 x3 x4) (mat x5) (row x6))

theorem v16_at (i : Fin 4096) (j : Fin 256) :
    val_main_v16 (F := Ideal) x0 x1 x2 x3 x4 x5 x6 (ix2 i j) = h1 x0 x1 x2 x3 x4 x5 x6 i j := by
  rw [val_main_v16_apply, val_main_v15_apply, v12_at, v14_at, call1_at]
  exact rfl

theorem v17_at (i : Fin 4096) (j : Fin 256) :
    val_main_v17 (F := Ideal) x0 x1 x2 x3 x4 x5 x6 (ix2 i j) = mm (fm x1 x2) (h1 x0 x1 x2 x3 x4 x5 x6) i j := by
  rw [val_main_v17_apply]
  refine Finset.sum_congr rfl fun l _ => ?_
  have el : lidx_main_v17 (ix2 i j) l = ix2 i l :=
    funext fun a => Fin.ext (by match a with | ⟨0, _⟩ => rfl | ⟨1, _⟩ => rfl)
  have er : ridx_main_v17 (ix2 i j) l = ix2 l j :=
    funext fun a => Fin.ext (by match a with | ⟨0, _⟩ => rfl | ⟨1, _⟩ => rfl)
  rw [el, er, v4_at, v16_at]

theorem v18_at (i : Fin 4096) (j : Fin 256) :
    val_main_v18 (F := Ideal) x0 x1 x2 x3 x4 x5 x6 x7 (ix2 i j)
      = mm (mm (fm x1 x2) (h1 x0 x1 x2 x3 x4 x5 x6)) (mat x7) i j := by
  rw [val_main_v18_apply]
  refine Finset.sum_congr rfl fun l _ => ?_
  have el : lidx_main_v18 (ix2 i j) l = ix2 i l :=
    funext fun a => Fin.ext (by match a with | ⟨0, _⟩ => rfl | ⟨1, _⟩ => rfl)
  have er : ridx_main_v18 (ix2 i j) l = ix2 l j :=
    funext fun a => Fin.ext (by match a with | ⟨0, _⟩ => rfl | ⟨1, _⟩ => rfl)
  rw [el, er, v17_at]
  exact rfl

theorem v20_at (i : Fin 4096) (j : Fin 256) : val_main_v20 (F := Ideal) x8 (ix2 i j) = row x8 j := by
  rw [val_main_v20_apply, val_main_v19_apply]
  exact congrArg x8 (funext fun a => Fin.ext (by match a with | ⟨0, _⟩ => rfl))

theorem v21_at (i : Fin 4096) (j : Fin 256) :
    val_main_v21 (F := Ideal) x0 x1 x2 x3 x4 x5 x6 x7 x8 (ix2 i j)
      = netR (fm x1 x2) (mat x0) (mat x3) (row x4) (mat x5) (row x6) (mat x7) (row x8) i j := by
  rw [val_main_v21_apply, v18_at, v20_at]
  exact rfl

theorem v24_at (i : Fin 4096) :
    val_main_v24 (F := Ideal) x2 (ix1 i) = zeroW + ∑ r : Fin 4096, chan x2 0 r i := by
  rw [val_main_v24_apply]
  refine congrArg₂ (· + ·) (val_main_cst_apply _) (Finset.sum_congr rfl fun r _ => ?_)
  have e : idx_main_v24 (ix1 i) r = ix2 r i :=
    funext fun a => Fin.ext (by match a with | ⟨0, _⟩ => rfl | ⟨1, _⟩ => rfl)
  rw [e, v23_at]

theorem v25_at (i : Fin 4096) : val_main_v25 (F := Ideal) (ix1 i) = n4096W :=
  (val_main_v25_apply _).trans (val_main_cst_0_apply _)

theorem v26_at (i : Fin 4096) : val_main_v26 (F := Ideal) x2 (ix1 i) = colMean (chan x2 0) i := by
  rw [val_main_v26_apply, v24_at, v25_at]
  exact rfl

theorem v28_at (i : Fin 4096) (j : Fin 256) : val_main_v28 (F := Ideal) x2 (ix2 i j) = colMean (chan x2 0) i := by
  rw [val_main_v28_apply, val_main_v27_apply]
  have e : idx_main_v27 (idx_main_v28 (ix2 i j)) = ix1 i :=
    funext fun a => Fin.ext (by match a with | ⟨0, _⟩ => rfl)
  rw [e, v26_at]

theorem val_eq_result :
    val_main_v29 (F := Ideal) x0 x1 x2 x3 x4 x5 x6 x7 x8 = Cert.Spec.result x0 x1 x2 x3 x4 x5 x6 x7 x8 := by
  funext idx
  obtain ⟨i, j, rfl⟩ : ∃ (i : Fin 4096) (j : Fin 256), idx = ix2 i j := ⟨idx 0, idx 1, eq_ix2 idx⟩
  rw [val_main_v29_apply, v28_at, v21_at]
  exact rfl

theorem run_result (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v29)
        = Cert.Spec.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run _ _ _).mono (fun _ h c => ⟨(h c).1.trans ((val_main_v29_eq _ _ _ _ _ _ _ _ _).trans (val_eq_result _ _ _ _ _ _ _ _ _)), (h c).2⟩)
    (Cert.ReferenceIdeal.Value.run (F := Ideal) m ρ)

end Cert.RefValue

end
-- ==== Proof.LibFinite.lean ====
import Mathlib.Data.EReal.Operations
import Mathlib.Algebra.Order.BigOperators.Group.Finset

namespace Cert.LibFinite

open scoped BigOperators

/-- An extended real that is a real. -/
def IsFin (x : EReal) : Prop := x ≠ ⊤ ∧ x ≠ ⊥

theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

theorem isFin_coe (r : ℝ) : IsFin (r : EReal) := ⟨EReal.coe_ne_top r, EReal.coe_ne_bot r⟩

theorem isFin_zero : IsFin (0 : EReal) := isFin_coe 0
theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

theorem isFin_sum {ι : Type*} (s : Finset ι) (f : ι → EReal) (h : ∀ i ∈ s, IsFin (f i)) : IsFin (∑ i ∈ s, f i) :=
  Finset.sum_induction f IsFin (fun _ _ ha hb => ha.add hb) isFin_zero h

theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibFinite
-- ==== Proof.LibGcnRuns.lean ====
import Mathlib.Algebra.BigOperators.Fin
import Mathlib.Algebra.BigOperators.Intervals
import proofs.«123138_j12206297055730_1_alg».proof.Proof.LibFinite

namespace Cert.LibGcnRuns

open Cert.LibFinite
open scoped BigOperators

/-- For finite entries, contracting `s · x` with `w` is contracting `s` with `x · w`: both sides are one double sum over the reals. -/
theorem agg_proj_comm {ιk ιj : Type*} [Fintype ιk] [Fintype ιj] (s : ιk → EReal) (x : ιk → ιj → EReal) (w : ιj → EReal)
    (hs : ∀ k, IsFin (s k)) (hx : ∀ k j, IsFin (x k j)) (hw : ∀ j, IsFin (w j)) :
    ∑ j, (∑ k, s k * x k j) * w j = ∑ k, s k * ∑ j, x k j * w j := by
  choose s' hs' using fun k => isFin_iff.mp (hs k)
  choose x' hx' using fun k j => isFin_iff.mp (hx k j)
  choose w' hw' using fun j => isFin_iff.mp (hw j)
  have hL : ∑ j, (∑ k, s k * x k j) * w j = ((∑ j, (∑ k, s' k * x' k j) * w' j : ℝ) : EReal) := by
    rw [coe_sum]
    refine Finset.sum_congr rfl fun j _ => ?_
    rw [EReal.coe_mul, coe_sum, hw' j]
    refine congrArg (· * (w' j : EReal)) (Finset.sum_congr rfl fun k _ => ?_)
    rw [EReal.coe_mul, hs' k, hx' k j]
  have hR : ∑ k, s k * ∑ j, x k j * w j = ((∑ k, s' k * ∑ j, x' k j * w' j : ℝ) : EReal) := by
    rw [coe_sum]
    refine Finset.sum_congr rfl fun k _ => ?_
    rw [EReal.coe_mul, coe_sum, hs' k]
    refine congrArg ((s' k : EReal) * ·) (Finset.sum_congr rfl fun j _ => ?_)
    rw [EReal.coe_mul, hx' k j, hw' j]
  rw [hL, hR]
  refine congrArg _ ?_
  simp only [Finset.sum_mul, Finset.mul_sum]
  rw [Finset.sum_comm]
  exact Finset.sum_congr rfl fun k _ => Finset.sum_congr rfl fun j _ => mul_assoc _ _ _

end Cert.LibGcnRuns
-- ==== Proof.Algebra.lean ====
import proofs.«123138_j12206297055730_1_alg».proof.Proof.Spec
import proofs.«123138_j12206297055730_1_alg».proof.Proof.LibFinite
import proofs.«123138_j12206297055730_1_alg».proof.Proof.LibGcnRuns

noncomputable section

namespace Cert.Algebra

open Idealize.ShloMosaic Idealize.ShloMosaic.ValueIdx
open Cert.Spec Cert.LibFinite
open scoped BigOperators

theorem isFin_zeroW : IsFin zeroW := by
  have h : Ideal.ofBits .f32 0x00000000#32 = 0 := by simp [Ideal.ofBits, Ideal.ieee]
  show IsFin (Ideal.ofBits .f32 0x00000000#32)
  rw [h]
  exact isFin_zero

theorem isFin_mm {n k m : ℕ} (a : Mat n k) (b : Mat k m) (ha : ∀ i l, IsFin (a i l)) (hb : ∀ l j, IsFin (b l j)) :
    ∀ i j, IsFin (mm a b i j) := fun i j =>
  isFin_sum_univ (fun l => a i l * b l j) fun l => (ha i l).mul (hb l j)

/-- On finite entries the matrix product is associative: a factor moves across a finite sum of finite terms. -/
theorem mm_assoc {n k d m : ℕ} (f : Mat n k) (x : Mat k d) (w : Mat d m) (hf : ∀ i l, IsFin (f i l))
    (hx : ∀ l j, IsFin (x l j)) (hw : ∀ l j, IsFin (w l j)) : mm (mm f x) w = mm f (mm x w) := by
  funext i j
  exact Cert.LibGcnRuns.agg_proj_comm (fun l => f i l) x (fun l => w l j) (hf i) hx (fun l => hw l j)

theorem layerK_eq_layerR {n d : ℕ} (f : Mat n n) (x : Mat n d) (w : Mat d d) (b : Fin d → EReal)
    (hf : ∀ i l, IsFin (f i l)) (hx : ∀ l j, IsFin (x l j)) (hw : ∀ l j, IsFin (w l j)) :
    layerK f x w b = layerR f x w b := by
  unfold layerK layerR
  rw [mm_assoc f x w hf hx hw]

theorem isFin_layerR {n d : ℕ} (f : Mat n n) (x : Mat n d) (w : Mat d d) (b : Fin d → EReal)
    (hf : ∀ i l, IsFin (f i l)) (hx : ∀ l j, IsFin (x l j)) (hw : ∀ l j, IsFin (w l j)) (hb : ∀ j, IsFin (b j)) :
    ∀ i j, IsFin (layerR f x w b i j) := fun i j =>
  (isFin_mm (mm f x) w (isFin_mm f x hf hx) hw i j).add (hb j)

theorem isFin_relu {n d : ℕ} (x : Mat n d) (hx : ∀ i j, IsFin (x i j)) : ∀ i j, IsFin (relu x i j) := fun i j =>
  (hx i j).max isFin_zeroW

/-- The two groupings of the network agree on finite inputs: every layer's output is finite again, so associativity applies layer by layer. -/
theorem netK_eq_netR {n d : ℕ} (f : Mat n n) (y : Mat n d) (w0 : Mat d d) (b0 : Fin d → EReal) (w1 : Mat d d)
    (b1 : Fin d → EReal) (w2 : Mat d d) (b2 : Fin d → EReal)
    (hf : ∀ i l, IsFin (f i l)) (hy : ∀ l j, IsFin (y l j))
    (hw0 : ∀ l j, IsFin (w0 l j)) (hb0 : ∀ j, IsFin (b0 j))
    (hw1 : ∀ l j, IsFin (w1 l j)) (hb1 : ∀ j, IsFin (b1 j))
    (hw2 : ∀ l j, IsFin (w2 l j)) (_hb2 : ∀ j, IsFin (b2 j)) :
    netK f y w0 b0 w1 b1 w2 b2 = netR f y w0 b0 w1 b1 w2 b2 := by
  unfold netK netR
  have h1 : ∀ i j, IsFin (relu (layerR f y w0 b0) i j) := isFin_relu _ (isFin_layerR f y w0 b0 hf hy hw0 hb0)
  have h2 : ∀ i j, IsFin (relu (layerR f (relu (layerR f y w0 b0)) w1 b1) i j) :=
    isFin_relu _ (isFin_layerR f _ w1 b1 hf h1 hw1 hb1)
  rw [layerK_eq_layerR f y w0 b0 hf hy hw0, layerK_eq_layerR f _ w1 b1 hf h1 hw1,
    layerK_eq_layerR f _ w2 b2 hf h2 hw2]

theorem resultK_eq_result (y : (⟨2, ![4096, 256]⟩ : Shape).Idx → EReal) (adj dadj : (⟨3, ![4096, 4096, 2]⟩ : Shape).Idx → EReal)
    (w0 : (⟨2, ![256, 256]⟩ : Shape).Idx → EReal) (b0 : (⟨1, ![256]⟩ : Shape).Idx → EReal)
    (w1 : (⟨2, ![256, 256]⟩ : Shape).Idx → EReal) (b1 : (⟨1, ![256]⟩ : Shape).Idx → EReal)
    (w2 : (⟨2, ![256, 256]⟩ : Shape).Idx → EReal) (b2 : (⟨1, ![256]⟩ : Shape).Idx → EReal)
    (hy : ∀ i, IsFin (y i)) (hadj : ∀ i, IsFin (adj i)) (hdadj : ∀ i, IsFin (dadj i))
    (hw0 : ∀ i, IsFin (w0 i)) (hb0 : ∀ i, IsFin (b0 i)) (hw1 : ∀ i, IsFin (w1 i)) (hb1 : ∀ i, IsFin (b1 i))
    (hw2 : ∀ i, IsFin (w2 i)) (hb2 : ∀ i, IsFin (b2 i)) :
    resultK y adj dadj w0 b0 w1 b1 w2 b2 = result y adj dadj w0 b0 w1 b1 w2 b2 := by
  have hf : ∀ i l, IsFin (mm (chan dadj 1) (chan adj 1) i l) :=
    isFin_mm (chan dadj 1) (chan adj 1) (fun i l => hdadj (ix3 i l 1)) (fun l j => hadj (ix3 l j 1))
  funext idx
  unfold resultK result
  rw [netK_eq_netR (mm (chan dadj 1) (chan adj 1)) (mat y) (mat w0) (row b0) (mat w1) (row b1) (mat w2) (row b2) hf
    (fun l j => hy (ix2 l j)) (fun l j => hw0 (ix2 l j)) (fun j => hb0 (ix1 j)) (fun l j => hw1 (ix2 l j))
    (fun j => hb1 (ix1 j)) (fun l j => hw2 (ix2 l j)) (fun j => hb2 (ix1 j))]

end Cert.Algebra

end
-- ==== Proof.PreFinite.lean ====
import proofs.«123138_j12206297055730_1_alg».proof.Defs
import proofs.«123138_j12206297055730_1_alg».proof.Proof.Gen.Pre_finite_inputs
import proofs.«123138_j12206297055730_1_alg».proof.Proof.LibFinite
import Idealize.ShloMosaic.Lib.ReduceAll
import Idealize.ShloMosaic.Lib.ValueIdx

namespace Cert.PreFinite

open Idealize.ShloMosaic Idealize.ShloMosaic.ValueIdx Cert.LibFinite
open Cert.Pre_finite_inputs (S_ S4096x256 S4096x4096x2 S256x256 S256)

instance : Subsingleton S_.Idx := ⟨fun a b => funext fun d => d.elim0⟩

theorem top_f32 : Ideal.ofBits .f32 0x7F800000#32 = ⊤ := by simp [Ideal.ofBits, Ideal.ieee]

theorem isFin_of_abs_lt (x : EReal) (h : Ideal.cmp .olt (max x (-x)) (Ideal.ofBits .f32 0x7F800000#32) = 1#1) :
    IsFin x := by
  rw [top_f32] at h
  induction x using EReal.rec with
  | bot => simp [Ideal.cmp] at h
  | top => simp [Ideal.cmp] at h
  | coe r => exact isFin_coe r

theorem allFin_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
          (constantI S_ 1 1#1) hr hu ix0 = 1#1) (i : s.Idx) : IsFin (a i) :=
  isFin_of_abs_lt (a i) (Host.reduce_andi_all _ _ hr hu ix0 e i)

/-- The precondition says every entry of every argument is finite: each conjunct is one all-entries test of `|x| < +inf`. -/
theorem finite_of_pre [Cert.Pre_finite_inputs.Facts]
    (a0 : FVec Ideal S4096x256 .f32) (a1 a2 : FVec Ideal S4096x4096x2 .f32)
    (a3 : FVec Ideal S256x256 .f32) (a4 : FVec Ideal S256 .f32) (a5 : FVec Ideal S256x256 .f32)
    (a6 : FVec Ideal S256 .f32) (a7 : FVec Ideal S256x256 .f32) (a8 : FVec Ideal S256 .f32)
    (h : Cert.Pre_finite_inputs.fn (F := Ideal) a0 a1 a2 a3 a4 a5 a6 a7 a8 = fun _ => 1#1) :
    (∀ i, IsFin (a0 i)) ∧ (∀ i, IsFin (a1 i)) ∧ (∀ i, IsFin (a2 i)) ∧ (∀ i, IsFin (a3 i)) ∧ (∀ i, IsFin (a4 i))
      ∧ (∀ i, IsFin (a5 i)) ∧ (∀ i, IsFin (a6 i)) ∧ (∀ i, IsFin (a7 i)) ∧ (∀ i, IsFin (a8 i)) := by
  have h0 := congrFun h ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨e0, e1⟩, e2⟩, e3⟩, e4⟩, e5⟩, e6⟩, e7⟩, e8⟩ := h0
  exact ⟨allFin_of_all a0 _ _ _ e0, allFin_of_all a1 _ _ _ e1, allFin_of_all a2 _ _ _ e2, allFin_of_all a3 _ _ _ e3,
    allFin_of_all a4 _ _ _ e4, allFin_of_all a5 _ _ _ e5, allFin_of_all a6 _ _ _ e6, allFin_of_all a7 _ _ _ e7,
    allFin_of_all a8 _ _ _ e8⟩

end Cert.PreFinite
-- ==== Proof.lean ====
/- The claim: the three frames, the empty idealization ledger, and the equality of the two idealized programs' results.
   The kernel program forms `f = da · a` once and then three layers `f · (x · w) + b` (the first two rectified); the reference
   forms `(f · x) · w + b`. Both scale each row of the last layer by a column mean. On finite entries, which the precondition
   gives and every layer keeps, the matrix product is associative, so the two are one function of the arguments. -/
import proofs.«123138_j12206297055730_1_alg».proof.Defs
import proofs.«123138_j12206297055730_1_alg».proof.Proof.Gen.Kernel
import proofs.«123138_j12206297055730_1_alg».proof.Proof.Gen.KernelIdeal
import proofs.«123138_j12206297055730_1_alg».proof.Proof.Gen.ReferenceIdeal
import proofs.«123138_j12206297055730_1_alg».proof.Proof.Gen.Pre_finite_inputs
import proofs.«123138_j12206297055730_1_alg».proof.Proof.HandBits.Assemble
import proofs.«123138_j12206297055730_1_alg».proof.Proof.HandIdeal.KernelValue
import proofs.«123138_j12206297055730_1_alg».proof.Proof.RefValue
import proofs.«123138_j12206297055730_1_alg».proof.Proof.Algebra
import proofs.«123138_j12206297055730_1_alg».proof.Proof.PreFinite
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame (F := Bits) m ρ

theorem frame_pi : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal (nD τ main_arg0 main_arg1 main_arg2 main_arg3 main_arg4 main_arg5 main_arg6 main_arg7 main_arg8 main_v24) in
open Cert.KernelIdeal.Hand (run_all kept_of_run mem_uc W9_result) in
/-- The kernel's run ends with the result at the network grouped `f · (x · w)`, the reference's at the network grouped
    `(f · x) · w`; on the finite inputs the precondition admits the two groupings agree. -/
theorem algebraic : Cert.algebraic_KernelIdeal_ReferenceIdeal := by
  intro m ρ m' ρ' hpre hagree
  refine ⟨fun c => Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)), ?_, ?_⟩
  · refine (θ_run Cert.KernelIdeal.defs _ _).mono (fun r h c => ?_) (run_all (F := Ideal) m ρ)
    obtain ⟨f0, f1, f2, f3, f4, f5, f6, f7, f8⟩ := Cert.PreFinite.finite_of_pre _ _ _ _ _ _ _ _ _ (hpre c)
    exact ⟨(h c _ (mem_uc main_v24 (by decide))).trans
        ((W9_result m c).trans (Cert.Algebra.resultK_eq_result _ _ _ _ _ _ _ _ _ f0 f1 f2 f3 f4 f5 f6 f7 f8)),
      kept_of_run m (h c) main_arg0 (by decide),
      kept_of_run m (h c) main_arg1 (by decide),
      kept_of_run m (h c) main_arg2 (by decide),
      kept_of_run m (h c) main_arg3 (by decide),
      kept_of_run m (h c) main_arg4 (by decide),
      kept_of_run m (h c) main_arg5 (by decide),
      kept_of_run m (h c) main_arg6 (by decide),
      kept_of_run m (h c) main_arg7 (by decide),
      kept_of_run m (h c) main_arg8 (by decide)⟩
  · refine (θ_run Cert.ReferenceIdeal.defs _ _).mono (fun r h c => ?_) (Cert.RefValue.run_result m' ρ')
    obtain ⟨a0, a1, a2, a3, a4, a5, a6, a7, a8⟩ := hagree c
    refine ⟨?_, (h c).2⟩
    rw [(h c).1, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
